-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8192 : Shape := ⟨2, ![8192, 8192]⟩
abbrev S8192x512 : Shape := ⟨2, ![8192, 512]⟩
abbrev S_ : Shape := ⟨0, ![]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel
  bcast_S_S8192x512 : S_.BroadcastsInDim S8192x512 (![] : Fin 0 → Fin S8192x512.rank)
  reducesTo_S8192x512_S_d0_1 : S8192x512.ReducesTo [0, 1] S_

variable [Facts]

def fn {F : FTy → Type} [FloatOps F] (main_arg0 : FVec F S8192x8192 .f32) (main_arg1 : FVec F S8192x512 .f32) : IVec S_ 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  main_v8
-- ==== Kernel.lean ====
abbrev S8192x8192 : Shape := ⟨2, ![8192, 8192]⟩
abbrev S8192x512 : Shape := ⟨2, ![8192, 512]⟩
abbrev S8192 : Shape := ⟨1, ![8192]⟩
abbrev S256x8192 : Shape := ⟨2, ![256, 8192]⟩
abbrev S256 : Shape := ⟨1, ![256]⟩
abbrev S_ : Shape := ⟨0, ![]⟩
abbrev S1024x512 : Shape := ⟨2, ![1024, 512]⟩
abbrev S512x1024 : Shape := ⟨2, ![512, 1024]⟩
abbrev S512x512 : Shape := ⟨2, ![512, 512]⟩
abbrev S1024 : Shape := ⟨1, ![1024]⟩
abbrev S512 : Shape := ⟨1, ![512]⟩
abbrev S512x1 : Shape := ⟨2, ![512, 1]⟩
abbrev S1024x1 : Shape := ⟨2, ![1024, 1]⟩

abbrev nBuf : Space → Nat
  | .hbm => 25
  | .vmem => 23
  | .smem => 0
  | _ => 0

abbrev bufTy : (tb : Table) → Fin (tcTables nBuf tb) → BufTy
  | .hbm, ⟨0, _⟩ => ⟨S8192x8192, .f32⟩
  | .hbm, ⟨1, _⟩ => ⟨S8192x512, .f32⟩
  | .hbm, ⟨2, _⟩ => ⟨S8192, .f32⟩
  | .hbm, ⟨3, _⟩ => ⟨S8192, .f32⟩
  | .hbm, ⟨4, _⟩ => ⟨S8192, .f32⟩
  | .hbm, ⟨5, _⟩ => ⟨S_, .f32⟩
  | .hbm, ⟨6, _⟩ => ⟨S8192, .f32⟩
  | .hbm, ⟨7, _⟩ => ⟨S8192, .f32⟩
  | .hbm, ⟨8, _⟩ => ⟨S_, .f32⟩
  | .hbm, ⟨9, _⟩ => ⟨S8192, .f32⟩
  | .hbm, ⟨10, _⟩ => ⟨S8192, .f32⟩
  | .hbm, ⟨11, _⟩ => ⟨S_, .f32⟩
  | .hbm, ⟨12, _⟩ => ⟨S8192, .f32⟩
  | .hbm, ⟨13, _⟩ => ⟨S8192, .f32⟩
  | .hbm, ⟨14, _⟩ => ⟨S8192, .f32⟩
  | .hbm, ⟨15, _⟩ => ⟨S_, .f32⟩
  | .hbm, ⟨16, _⟩ => ⟨S8192, .f32⟩
  | .hbm, ⟨17, _⟩ => ⟨S8192, .i1⟩
  | .hbm, ⟨18, _⟩ => ⟨S_, .f32⟩
  | .hbm, ⟨19, _⟩ => ⟨S_, .f32⟩
  | .hbm, ⟨20, _⟩ => ⟨S8192, .f32⟩
  | .hbm, ⟨21, _⟩ => ⟨S8192, .f32⟩
  | .hbm, ⟨22, _⟩ => ⟨S8192, .f32⟩
  | .hbm, ⟨23, _⟩ => ⟨S_, .f32⟩
  | .hbm, ⟨24, _⟩ => ⟨S_, .f32⟩
  | .local _ .vmem, ⟨0, _⟩ => ⟨S256x8192, .f32⟩
  | .local _ .vmem, ⟨1, _⟩ => ⟨S256x8192, .f32⟩
  | .local _ .vmem, ⟨2, _⟩ => ⟨S256, .f32⟩
  | .local _ .vmem, ⟨3, _⟩ => ⟨S256, .f32⟩
  | .local _ .vmem, ⟨4, _⟩ => ⟨S8192, .f32⟩
  | .local _ .vmem, ⟨5, _⟩ => ⟨S8192, .f32⟩
  | .local _ .vmem, ⟨6, _⟩ => ⟨S1024x512, .f32⟩
  | .local _ .vmem, ⟨7, _⟩ => ⟨S1024x512, .f32⟩
  | .local _ .vmem, ⟨8, _⟩ => ⟨S512x1024, .f32⟩
  | .local _ .vmem, ⟨9, _⟩ => ⟨S512x1024, .f32⟩
  | .local _ .vmem, ⟨10, _⟩ => ⟨S1024x512, .f32⟩
  | .local _ .vmem, ⟨11, _⟩ => ⟨S1024x512, .f32⟩
  | .local _ .vmem, ⟨12, _⟩ => ⟨S512x512, .f32⟩
  | .local _ .vmem, ⟨13, _⟩ => ⟨S512x512, .f32⟩
  | .local _ .vmem, ⟨14, _⟩ => ⟨S1024, .f32⟩
  | .local _ .vmem, ⟨15, _⟩ => ⟨S1024, .f32⟩
  | .local _ .vmem, ⟨16, _⟩ => ⟨S512, .f32⟩
  | .local _ .vmem, ⟨17, _⟩ => ⟨S512, .f32⟩
  | .local _ .vmem, ⟨18, _⟩ => ⟨S1024, .f32⟩
  | .local _ .vmem, ⟨19, _⟩ => ⟨S1024, .f32⟩
  | .local _ .vmem, ⟨20, _⟩ => ⟨S1024, .f32⟩
  | .local _ .vmem, ⟨21, _⟩ => ⟨S1024, .f32⟩
  | .local _ .vmem, ⟨22, _⟩ => ⟨S1024x512, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_call0_v0 : Ref sig .tc := ⟨.hbm, 14, rfl⟩
abbrev main_call0_cst : Ref sig .tc := ⟨.hbm, 15, rfl⟩
abbrev main_call0_v1 : Ref sig .tc := ⟨.hbm, 16, rfl⟩
abbrev main_v8 : Ref sig .tc := ⟨.hbm, 17, rfl⟩
abbrev main_cst_2 : Ref sig .tc := ⟨.hbm, 18, rfl⟩
abbrev main_call1_v0 : Ref sig .tc := ⟨.hbm, 19, rfl⟩
abbrev main_call1_v1 : Ref sig .tc := ⟨.hbm, 20, rfl⟩
abbrev main_v9 : Ref sig .tc := ⟨.hbm, 21, rfl⟩
abbrev main_v10 : Ref sig .tc := ⟨.hbm, 22, rfl⟩
abbrev main_cst_3 : Ref sig .tc := ⟨.hbm, 23, rfl⟩
abbrev main_v11 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc1_stg6_0 : Ref sig .tc := ⟨.vmem, 18, rfl⟩
abbrev cc1_stg6_1 : Ref sig .tc := ⟨.vmem, 19, rfl⟩
abbrev cc1_stg7_0 : Ref sig .tc := ⟨.vmem, 20, rfl⟩
abbrev cc1_stg7_1 : Ref sig .tc := ⟨.vmem, 21, rfl⟩
abbrev cc1_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14
abbrev cc1_sem5_0 : DmaSem sig := 15
abbrev cc1_sem5_1 : DmaSem sig := 16
abbrev cc1_sem6_0 : DmaSem sig := 17
abbrev cc1_sem6_1 : DmaSem sig := 18
abbrev cc1_sem7_0 : DmaSem sig := 19
abbrev cc1_sem7_1 : DmaSem sig := 20

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v12 : BitVec 1 := Scalar.cmpi .eq arg0 c31_i32
  let v13 : BitVec 32 := Scalar.extui v12
  let c0_i32_6 : BitVec 32 := 0#32
  let v14 : BitVec 1 := Scalar.cmpi .ne v13 c0_i32_6
  v14

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  ![arg0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 2 → Memref sig .tc .vmem S256x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨2, ![8, 16], ![false, false]⟩

def k1_cond2 (i : grid1.Coords) : BitVec 1 :=
  let arg1 : BitVec 32 := BitVec.ofNat 32 (i 1).val
  let c15_i32 : BitVec 32 := 15#32
  let v24 : BitVec 1 := Scalar.cmpi .eq arg1 c15_i32
  let v25 : BitVec 32 := Scalar.extui v24
  let c0_i32_13 : BitVec 32 := 0#32
  let v26 : BitVec 1 := Scalar.cmpi .ne v25 c0_i32_13
  v26

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_4 (i : grid1.Coords) : Fin 1 → Nat :=
  let arg0 : BitVec 32 := BitVec.ofNat 32 (i 0).val
  let arg1 : BitVec 32 := BitVec.ofNat 32 (i 1).val
  let c0_i32 : BitVec 32 := 0#32
  ![arg0.toNat]

def cc1_transform_5 (i : grid1.Coords) : Fin 1 → Nat :=
  let arg0 : BitVec 32 := BitVec.ofNat 32 (i 0).val
  let arg1 : BitVec 32 := BitVec.ofNat 32 (i 1).val
  let c0_i32 : BitVec 32 := 0#32
  ![arg1.toNat]

def cc1_transform_6 (i : grid1.Coords) : Fin 1 → Nat :=
  let arg0 : BitVec 32 := BitVec.ofNat 32 (i 0).val
  let arg1 : BitVec 32 := BitVec.ofNat 32 (i 1).val
  let c0_i32 : BitVec 32 := 0#32
  ![arg0.toNat]

def cc1_transform_7 (i : grid1.Coords) : Fin 1 → Nat :=
  let arg0 : BitVec 32 := BitVec.ofNat 32 (i 0).val
  let arg1 : BitVec 32 := BitVec.ofNat 32 (i 1).val
  let c0_i32 : BitVec 32 := 0#32
  ![arg0.toNat]

abbrev stage1_0 : Fin 2 → Memref sig .tc .vmem S1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S512x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1024x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S512x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![false, true]

abbrev stage1_6 : Fin 2 → Memref sig .tc .vmem S1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev stage1_7 : Fin 2 → Memref sig .tc .vmem S1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

class Facts₀ : Prop where
  inb_S8192_S8192_0 : ∀ a, (![0] : Fin 1 → Nat) a + S8192.size a ≤ S8192.size a
  h_S8192 : 0 < S8192.numel
  shapeCasts_S8192_S8192 : S8192.ShapeCasts S8192
  inb_S256x8192_S256x8192_0_0 : ∀ a, (![0, 0] : Fin 2 → Nat) a + S256x8192.size a ≤ S256x8192.size a
  h_S256x8192 : 0 < S256x8192.numel
  reduces_S256x8192_S256 : S256x8192.Reduces [1] S256
  inb_S256_S256_0 : ∀ a, (![0] : Fin 1 → Nat) a + S256.size a ≤ S256.size a
  h_S256 : 0 < S256.numel
  reduces_S256x8192_S8192 : S256x8192.Reduces [0] S8192
  bcast_S_S8192 : S_.BroadcastsInDim S8192 (![] : Fin 0 → Fin S8192.rank)
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  inb_S512_S512_0 : ∀ a, (![0] : Fin 1 → Nat) a + S512.size a ≤ S512.size a
  h_S512 : 0 < S512.numel
  shapeCasts_S512_S512 : S512.ShapeCasts S512
  inb_S512x512_S512x512_0_0 : ∀ a, (![0, 0] : Fin 2 → Nat) a + S512x512.size a ≤ S512x512.size a
  h_S512x512 : 0 < S512x512.numel
  shapeCasts_S512_S512x1 : S512.ShapeCasts S512x1
  broadcasts_S512x1_S512x512 : S512x1.Broadcasts S512x512
  inb_S1024_S1024_0 : ∀ a, (![0] : Fin 1 → Nat) a + S1024.size a ≤ S1024.size a
  h_S1024 : 0 < S1024.numel
  shapeCasts_S1024_S1024 : S1024.ShapeCasts S1024
  shapeCasts_S1024_S1024x1 : S1024.ShapeCasts S1024x1
  broadcasts_S1024x1_S1024x512 : S1024x1.Broadcasts S1024x512
  reduces_S1024x512_S1024 : S1024x512.Reduces [1] S1024
  reducesTo_S8192_S_d0 : S8192.ReducesTo [0] S_
  h_S_ : 0 < S_.numel
  dot_S1024x512_S512x512_S1024x512_1_0_0_1_n_n_wf : DotDims.WF S1024x512 S512x512 S1024x512 [1] [0] [0] [1] [] []
  dot_S512x1024_S512x512_S1024x512_0_0_1_1_n_n_wf : DotDims.WF S512x1024 S512x512 S1024x512 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x8192.size a ≤ S8192x8192.size a
  hwx0_0 : ∀ i : grid0.Coords, EltTy.bits .f32 = 32 ∨ (Rect.block (s := S8192x8192) S256x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256.size a ≤ S8192.size a
  hwx0_1 : ∀ i : grid0.Coords, EltTy.bits .f32 = 32 ∨ (Rect.block (s := S8192) S256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8192.size a ≤ S8192.size a
  hwx0_2 : ∀ i : grid0.Coords, EltTy.bits .f32 = 32 ∨ (Rect.block (s := S8192) S8192.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S8192x8192.size a
  hwx1_0 : ∀ i : grid1.Coords, EltTy.bits .f32 = 32 ∨ (Rect.block (s := S8192x8192) S1024x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x1024.size a ≤ S8192x8192.size a
  hwx1_1 : ∀ i : grid1.Coords, EltTy.bits .f32 = 32 ∨ (Rect.block (s := S8192x8192) S512x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x512.size a ≤ S8192x512.size a
  hwx1_2 : ∀ i : grid1.Coords, EltTy.bits .f32 = 32 ∨ (Rect.block (s := S8192x512) S1024x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x512.size a ≤ S8192x512.size a
  hwx1_3 : ∀ i : grid1.Coords, EltTy.bits .f32 = 32 ∨ (Rect.block (s := S8192x512) S512x512.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024.size a ≤ S8192.size a
  hwx1_4 : ∀ i : grid1.Coords, EltTy.bits .f32 = 32 ∨ (Rect.block (s := S8192) S1024.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S512.size a ≤ S8192.size a
  hwx1_5 : ∀ i : grid1.Coords, EltTy.bits .f32 = 32 ∨ (Rect.block (s := S8192) S512.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1024.size a ≤ S8192.size a
  hwx1_6 : ∀ i : grid1.Coords, EltTy.bits .f32 = 32 ∨ (Rect.block (s := S8192) S1024.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1024.size a ≤ S8192.size a
  hwx1_7 : ∀ i : grid1.Coords, EltTy.bits .f32 = 32 ∨ (Rect.block (s := S8192) S1024.size (cc1_transform_7 i) (hinb1_7 i)).WholeWords (EltTy.packing .f32)

variable [Facts₀]

def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S512x1024_S512x512_S1024x512_0_0_1_1_n_n : DotDims S512x1024 S512x512 S1024x512 where
  lhsContracting := [0]
  rhsContracting := [0]
  lhsNonContracting := [1]
  rhsNonContracting := [1]
  lhsBatch := []
  rhsBatch := []
  wf := dot_S512x1024_S512x512_S1024x512_0_0_1_1_n_n_wf

abbrev win0_0 : Pipeline.Window sig grid0 :=
  Pipeline.Window.ofSpec (Memref.whole main_arg0) S256x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S256.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S8192.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_arg0) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S512x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S1024x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg1) S512x512.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v9) S1024.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v9) S512.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v3) S1024.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_v10) S1024.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev idle1 : Fin 8 → grid1.Coords → Bool := fun | 0 => fun _ => false | 1 => fun _ => false | 2 => fun _ => false | 3 => fun _ => false | 4 => fun _ => false | 5 => fun _ => false | 6 => fun _ => false | 7 => fun i => !(k1_cond2 i == 1#1) | ⟨_ + 8, h⟩ => absurd h (Nat.not_lt.2 (Nat.le_add_left _ _))

class Facts : Prop extends Facts₀ where

variable [Facts]
-- ==== ReferenceIdeal.lean ====
abbrev S8192x8192 : Shape := ⟨2, ![8192, 8192]⟩
abbrev S8192x512 : Shape := ⟨2, ![8192, 512]⟩
abbrev S_ : Shape := ⟨0, ![]⟩
abbrev S8192 : Shape := ⟨1, ![8192]⟩
abbrev S8192x1 : Shape := ⟨2, ![8192, 1]⟩
abbrev S1x8192 : Shape := ⟨2, ![1, 8192]⟩

abbrev nBuf : Space → Nat
  | .hbm => 47
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x512, .f32⟩
  | .hbm, ⟨2, _⟩ => ⟨S8192x8192, .f32⟩
  | .hbm, ⟨3, _⟩ => ⟨S8192x8192, .f32⟩
  | .hbm, ⟨4, _⟩ => ⟨S_, .f32⟩
  | .hbm, ⟨5, _⟩ => ⟨S8192x8192, .f32⟩
  | .hbm, ⟨6, _⟩ => ⟨S8192x8192, .f32⟩
  | .hbm, ⟨7, _⟩ => ⟨S_, .f32⟩
  | .hbm, ⟨8, _⟩ => ⟨S8192, .f32⟩
  | .hbm, ⟨9, _⟩ => ⟨S_, .f32⟩
  | .hbm, ⟨10, _⟩ => ⟨S8192, .f32⟩
  | .hbm, ⟨11, _⟩ => ⟨S8192x8192, .i32⟩
  | .hbm, ⟨12, _⟩ => ⟨S8192x8192, .i32⟩
  | .hbm, ⟨13, _⟩ => ⟨S_, .i32⟩
  | .hbm, ⟨14, _⟩ => ⟨S8192x8192, .i32⟩
  | .hbm, ⟨15, _⟩ => ⟨S8192x8192, .i32⟩
  | .hbm, ⟨16, _⟩ => ⟨S8192x8192, .i1⟩
  | .hbm, ⟨17, _⟩ => ⟨S8192x1, .f32⟩
  | .hbm, ⟨18, _⟩ => ⟨S_, .f32⟩
  | .hbm, ⟨19, _⟩ => ⟨S8192x8192, .f32⟩
  | .hbm, ⟨20, _⟩ => ⟨S8192x8192, .f32⟩
  | .hbm, ⟨21, _⟩ => ⟨S8192x8192, .f32⟩
  | .hbm, ⟨22, _⟩ => ⟨S8192x8192, .f32⟩
  | .hbm, ⟨23, _⟩ => ⟨S_, .f32⟩
  | .hbm, ⟨24, _⟩ => ⟨S8192, .f32⟩
  | .hbm, ⟨25, _⟩ => ⟨S8192, .f32⟩
  | .hbm, ⟨26, _⟩ => ⟨S_, .f32⟩
  | .hbm, ⟨27, _⟩ => ⟨S8192, .f32⟩
  | .hbm, ⟨28, _⟩ => ⟨S8192, .f32⟩
  | .hbm, ⟨29, _⟩ => ⟨S8192, .f32⟩
  | .hbm, ⟨30, _⟩ => ⟨S_, .f32⟩
  | .hbm, ⟨31, _⟩ => ⟨S8192, .f32⟩
  | .hbm, ⟨32, _⟩ => ⟨S8192, .i1⟩
  | .hbm, ⟨33, _⟩ => ⟨S_, .f32⟩
  | .hbm, ⟨34, _⟩ => ⟨S_, .f32⟩
  | .hbm, ⟨35, _⟩ => ⟨S8192, .f32⟩
  | .hbm, ⟨36, _⟩ => ⟨S8192, .f32⟩
  | .hbm, ⟨37, _⟩ => ⟨S8192x1, .f32⟩
  | .hbm, ⟨38, _⟩ => ⟨S8192x8192, .f32⟩
  | .hbm, ⟨39, _⟩ => ⟨S8192x8192, .f32⟩
  | .hbm, ⟨40, _⟩ => ⟨S1x8192, .f32⟩
  | .hbm, ⟨41, _⟩ => ⟨S8192x8192, .f32⟩
  | .hbm, ⟨42, _⟩ => ⟨S8192x8192, .f32⟩
  | .hbm, ⟨43, _⟩ => ⟨S8192x512, .f32⟩
  | .hbm, ⟨44, _⟩ => ⟨S8192x512, .f32⟩
  | .hbm, ⟨45, _⟩ => ⟨S_, .f32⟩
  | .hbm, ⟨46, _⟩ => ⟨S_, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_call0_cst : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_c : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_cst_0 : Ref sig .tc := ⟨.hbm, 18, rfl⟩
abbrev main_call0_call0_v0 : Ref sig .tc := ⟨.hbm, 19, rfl⟩
abbrev main_call0_call0_v1 : Ref sig .tc := ⟨.hbm, 20, rfl⟩
abbrev main_v5 : Ref sig .tc := ⟨.hbm, 21, rfl⟩
abbrev main_v6 : Ref sig .tc := ⟨.hbm, 22, rfl⟩
abbrev main_cst_1 : Ref sig .tc := ⟨.hbm, 23, rfl⟩
abbrev main_v7 : Ref sig .tc := ⟨.hbm, 24, rfl⟩
abbrev main_v8 : Ref sig .tc := ⟨.hbm, 25, rfl⟩
abbrev main_cst_2 : Ref sig .tc := ⟨.hbm, 26, rfl⟩
abbrev main_v9 : Ref sig .tc := ⟨.hbm, 27, rfl⟩
abbrev main_v10 : Ref sig .tc := ⟨.hbm, 28, rfl⟩
abbrev main_call1_v0 : Ref sig .tc := ⟨.hbm, 29, rfl⟩
abbrev main_call1_cst : Ref sig .tc := ⟨.hbm, 30, rfl⟩
abbrev main_call1_v1 : Ref sig .tc := ⟨.hbm, 31, rfl⟩
abbrev main_v11 : Ref sig .tc := ⟨.hbm, 32, rfl⟩
abbrev main_cst_3 : Ref sig .tc := ⟨.hbm, 33, rfl⟩
abbrev main_call2_v0 : Ref sig .tc := ⟨.hbm, 34, rfl⟩
abbrev main_call2_v1 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_cst_4 : Ref sig .tc := ⟨.hbm, 45, rfl⟩
abbrev main_v21 : Ref sig .tc := ⟨.hbm, 46, rfl⟩

abbrev nD : Nat := 1
abbrev τ : Topo := Topo.v7x

variable {F : FTy → Type} [FloatOps F]

class Facts₀ : Prop where
  transposes_S8192x8192_S8192x8192_1_0 : S8192x8192.Transposes [1, 0] S8192x8192
  bcast_S_S8192x8192 : S_.BroadcastsInDim S8192x8192 (![] : Fin 0 → Fin S8192x8192.rank)
  reducesTo_S8192x8192_S8192_d1 : S8192x8192.ReducesTo [1] S8192
  h_S_ : 0 < S_.numel
  pads_S8192_S8192_000 : S8192.Pads (![0] : Fin 1 → Nat) ![0] ![0] S8192
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  bcast_S_S8192 : S_.BroadcastsInDim S8192 (![] : Fin 0 → Fin S8192.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  reducesTo_S8192x512_S_d0_1 : S8192x512.ReducesTo [0, 1] S_
  dot_S8192x8192_S8192x512_S8192x512_1_0_0_1_n_n_wf : DotDims.WF S8192x8192 S8192x512 S8192x512 [1] [0] [0] [1] [] []

variable [Facts₀]

def dot_S8192x8192_S8192x512_S8192x512_1_0_0_1_n_n : DotDims S8192x8192 S8192x512 S8192x512 where
  lhsContracting := [1]
  rhsContracting := [0]
  lhsNonContracting := [0]
  rhsNonContracting := [1]
  lhsBatch := []
  rhsBatch := []
  wf := dot_S8192x8192_S8192x512_S8192x512_1_0_0_1_n_n_wf

class Facts : Prop extends Facts₀ where

variable [Facts]
-- ==== Proof.LibSharedLaunch.lean ====
import Idealize.ShloMosaic.Lib.Pipeline.RegionsLoop
import Idealize.ShloMosaic.Lib.Pipeline.Frame

noncomputable section

namespace Cert.LibSharedLaunch

open Idealize.SL
open Idealize.SL.BI (sProp bigSep bigSepL bigSep_eq_bigSepL_of_eq bigSep_congr)
open scoped Idealize.SL.BI
open Idealize.SL.BI.BIBase Idealize.SL.BI.Laws Idealize.SL.Sem Idealize.SL.ProofMode
open Idealize.SL.RA
open Idealize.ShloMosaic Idealize.ShloMosaic.Pipeline Idealize.ShloMosaic.Rounds
open TcCoe

variable {nD : Nat} {τ : Topo} {sig : RefSig} {Val : EltTy → Type} {Λ₀ : Idealize.SL.Sem.Labels}

section Split

variable {Ix : Type} [DecidableEq Ix] {Name : Type} [DecidableEq Name] {U : Type} [URA U] {Lvl : Type}

local notation "𝕄" => MT nD τ sig Ix Val Name U Lvl

/-- The two halves of the full share of a buffer, before anything else, are the buffer whole. -/
theorem halves_sep {ℓ : Loc nD τ sig} (f : Buf Val ℓ) {P Q : sProp 𝕄} (h : P = Q) :
    iprop((ℓ ↦{fullShare.left} f) ∗ (ℓ ↦{fullShare.right} f) ∗ P) = iprop((ℓ ↦{fullShare} f) ∗ Q) := by
  have hs := pointsTo_share (Ix := Ix) (Name := Name) (U := U) (Lvl := Lvl) (I := Finset.univ) (f := f) (PosShare.mem_left_op_right fullShare)
  rw [h, BI.Entails.antisymm hs.1 hs.2]
  exact BI.Entails.antisymm BI.sep_assoc' BI.sep_assoc

/-- The distinct buffers behind the windows' arrays, listed. -/
theorem arrBufs_eq_of_list {gr : Nat} {W : Nat} (win : Fin W → WinSpec sig gr) (c : Dev nD)
    (V : (b : Ref sig .tc) → Buf Val ((c.tc : Thread nD τ).loc b)) (l : List (Ref sig .tc))
    (h : Finset.univ.image (arrRef win) = l.toFinset) (hl : l.Nodup) :
    (arrBufs (Ix := Ix) (Name := Name) (U := U) (Lvl := Lvl) win c V : sProp 𝕄)
      = bigSepL l fun b => ((c.tc : Thread nD τ).loc b) ↦{fullShare} V b := by
  unfold arrBufs; exact bigSep_eq_bigSepL_of_eq l h hl _

variable {cfg : Cfg sig Λ₀} {c : Dev nD} (dat : Dat τ Val Ix Name U Lvl cfg c)
  (V V' : (b : Ref sig .tc) → Buf Val ((c.tc : Thread nD τ).loc b))
  (F : (w : Fin cfg.W) → Buf Val ((cfg.win w).arr.view.loc (c.tc : Thread nD τ)))

/-- Arrays that are whole buffers, at the contents of the buffers behind them: each buffer whole at its window's share. -/
theorem arrays_eq (harr : ∀ w, (cfg.spec w).arr.IsWhole) (hF : ∀ w, F w = V (arrRef cfg.spec w)) :
    dat.arrays F = bigSep Finset.univ fun w => (((c.tc : Thread nD τ).loc (arrRef cfg.spec w)) ↦{dat.share w} V (arrRef cfg.spec w) : sProp 𝕄) := by
  unfold Dat.arrays; exact bigSep_congr fun w _ => by rw [(harr w).set_eq_univ, hF w]

/-- Arrays that make up their buffers at `V'`, beside the other unscoped buffers at `V`, are the unscoped buffers at `V'`, which is `V` off the arrays. -/
theorem unscopedBufs_eq (hun : ∀ w, (arrRef cfg.spec w).isScoped = false)
    (ha : dat.arrays F = (arrBufs cfg.spec c V' : sProp 𝕄)) (hrest : ∀ b, b ∉ Finset.univ.image (arrRef cfg.spec) → V' b = V b) :
    iprop(dat.arrays F ∗ unscopedRest cfg.spec c V) = (unscopedBufs c V' : sProp 𝕄) := by
  rw [unscopedBufs_split₀ (fun _ : Unit => cfg) () hun c V', ha]
  unfold unscopedRest
  exact congrArg _ (bigSep_congr fun b hb => by rw [hrest b (Finset.mem_sdiff.mp hb).2])

end Split

section Region

variable {P : Type} [Fintype P] [∀ e, Nonempty (Val e)] (cfgs : P → Cfg sig Λ₀)
  (dats : (p : P) → (c : Dev nD) → Dat τ Val Unit ℕ (UR sig nD τ) ℕ (cfgs p) c)
  (defs₀ : Defs nD τ sig Val Λ₀) (𝒱₀ : Variants) (L : GSem nD τ sig → Finset Unit) (lv : GSem nD τ sig → Unit → ℕ)

local notation "𝕄" => MT nD τ sig Unit Val ℕ (UR sig nD τ) ℕ

/-- What rides beside the buffers through every item: the generator register at some state, and nothing owed. -/
abbrev rest (c : Dev nD) : sProp 𝕄 := iprop((∃ r, prngReg c r) ∗ ∃ W, owes (c : Thread nD τ) (0 : CellTallies nD τ sig Unit) W)

/-- A kernel region over a thread state that holds every unscoped buffer at a valuation, `Vi` at the entry and `Vo` at the exit. -/
def region (p : P) (Vi Vo : (c : Dev nD) → Valuation τ sig Val) (win : WinFacts₀ (cfgs p).spec)
    (hne : ∀ w : Fin (cfgs p).W, 0 < ((cfgs p).spec w).block.numel) (hstage : ∀ w s, (((cfgs p).spec w).stage s).IsWhole)
    (hbody : ∀ c, BodyObligation (dats p c) defs₀ 𝒱₀ () Set.univ)
    (howed : ∀ c t, (dats p c).owed t = 0) (hrec : ∀ c, (dats p c).recorded 0 = Set.univ)
    (hin : ∀ c, ΦA (cfgs p).spec c ⊢ (dats p c).Φ 0) (hout : ∀ c, (dats p c).Φ (Fin.last (cfgs p).N) ⊢ ΦA (cfgs p).spec c)
    (hsplit : ∀ c, (unscopedBufs c (fun b => Vi c b) : sProp 𝕄)
      ⊢ iprop((dats p c).arrays ((dats p c).arrAt · 0) ∗ unscopedRest (cfgs p).spec c fun b => Vi c b))
    (hjoin : ∀ c, iprop((dats p c).arrays ((dats p c).arrAt · (cfgs p).N) ∗ unscopedRest (cfgs p).spec c fun b => Vi c b)
      ⊢ (unscopedBufs c (fun b => Vo c b) : sProp 𝕄)) :
    RegionSeg (fun q => (cfgs q).toPCfg (Val := Val)) (fun q => (cfgs q).toPCfg_adm) dats () defs₀ 𝒱₀ L lv p where
  win := win
  block_pos := hne
  stage_whole := hstage
  K := PEmpty
  osem k := k.elim
  ho := OwnSemFacts.none _
  hbody c := (hbody c).loose
  hwaits := hwaits_of_owed_zero _ _ _ _ L lv p howed
  pre c := iprop(StableHlo.held (c : Thread nD τ) (ucRefs τ sig) (Vi c) ∗ rest c)
  post c := iprop(StableHlo.held (c : Thread nD τ) (ucRefs τ sig) (Vo c) ∗ rest c)
  X c := iprop(∃ r, prngReg c r)
  Y c := iprop(∃ r, prngReg c r)
  Z c := unscopedRest (cfgs p).spec c fun b => Vi c b
  hentry c := by
    rw [ownSems0_none, ← unscopedBufs_held]
    iintro ⟨⟨Hub, Hp, %W, HO⟩, -, -⟩
    ihave H := hsplit c $$ Hub
    icases H with ⟨Ha, Hrest⟩
    imodintro
    isplitl [Ha]; · iexact Ha
    isplitr; · unfold prefHeld; rw [show (Finset.univ : Finset (Fin 0)) = ∅ from rfl, BI.bigSep_empty]; iempintro
    isplitl [HO]
    · unfold Dat.owesAt owesWithin
      rw [howed c 0]
      iexists W; isplitr
      · ipureintro; exact fun _ _ => Or.inl (by rw [hrec c]; trivial)
      iexact HO
    isplitl [Hp]; · iexact Hp
    iexact Hrest
  hin c := (show _ ⊢ ΦA (cfgs p).spec c by
    unfold ΦA; iintro ⟨Hp, -, Hr⟩
    isplitl [Hr] <;> iassumption).trans (hin c)
  hout c := (hout c).trans (by
    rw [ownSems0_none]; unfold ΦA
    iintro ⟨Hr, Hp⟩
    isplitl [Hp]; · iexact Hp
    isplitr; · iempintro
    iexact Hr)
  hexit c := by
    rw [← unscopedBufs_held]
    iintro ⟨Ha, ⟨%W, -, HO⟩, HY, Hrest⟩
    imodintro
    isplitl [Ha Hrest]
    · iapply hjoin c; isplitl [Ha] <;> iassumption
    isplitl [HY]; · iexact HY
    rw [howed c _]
    iexists W; iexact HO

end Region

end Cert.LibSharedLaunch
-- ==== Proof.KShares.lean ====
import proofs.«146407_j60627758350707_1_alg».proof.Proof.Gen.KernelIdeal.Launch
import proofs.«146407_j60627758350707_1_alg».proof.Proof.LibSharedLaunch

noncomputable section

namespace Cert.KernelIdeal.Shares

open Cert.KernelIdeal Cert.KernelIdeal.Gen
open Idealize.SL
open Idealize.SL.BI (sProp)
open scoped Idealize.SL.BI
open Idealize.SL.RA
open Idealize.ShloMosaic Idealize.ShloMosaic.Pipeline Idealize.ShloMosaic.Rounds
open TcCoe
open Cert.LibSharedLaunch

variable {F : FTy → Type} [FloatOps F]

local notation "𝕄" => MT nD τ sig Unit (Elt F) ℕ (UR sig nD τ) ℕ

/-- Region 1's shares: windows 0 and 1, 2 and 3, 4 and 5 pair up on one buffer, each pair holding the two halves of the full share. -/
def q1 : Fin cfg1.W → PosShare TreeShare := fun
  | ⟨0, _⟩ => fullShare.left | ⟨1, _⟩ => fullShare.right | ⟨2, _⟩ => fullShare.left | ⟨3, _⟩ => fullShare.right
  | ⟨4, _⟩ => fullShare.left | ⟨5, _⟩ => fullShare.right | ⟨6, _⟩ => fullShare | ⟨7, _⟩ => fullShare

/-- At those shares the eight arrays, at the contents of the buffers behind them, are the five buffers whole: the halves join. -/
theorem arrays_eq_arrBufs1 {c : Dev nD} (dat : Dat τ (Elt F) Unit ℕ (UR sig nD τ) ℕ cfg1 c) (hq : dat.q = q1)
    (V : (b : Ref sig .tc) → Buf (Elt F) ((c.tc : Thread nD τ).loc b))
    (Fw : (w : Fin cfg1.W) → Buf (Elt F) ((cfg1.spec w).arr.view.loc (c.tc : Thread nD τ)))
    (hF : ∀ w, Fw w = V (arrRef spec1 w)) :
    dat.arrays Fw = (arrBufs (Ix := Unit) (Name := ℕ) (U := UR sig nD τ) (Lvl := ℕ) spec1 c V : sProp 𝕄) := by
  have hs : dat.share = q1 := funext fun w => by
    unfold Dat.share; rw [hq]
    exact ite_eq_right_iff.2 fun h => by
      obtain rfl := (by decide : ∀ w : Fin 8, (cfg1.win w).isOut = true → w = 7) w h; rfl
  rw [arrays_eq dat V Fw arr_whole1 hF, hs, bigSep_W1,
    arrBufs_eq_of_list spec1 c V [main_arg0, main_arg1, main_v9, main_v3, main_v10] (by decide) (by decide)]
  exact halves_sep _ (halves_sep _ (halves_sep _ rfl))

end Cert.KernelIdeal.Shares

end
-- ==== Proof.KLaunch.lean ====
import proofs.«146407_j60627758350707_1_alg».proof.Proof.Gen.KernelIdeal.Regions
import proofs.«146407_j60627758350707_1_alg».proof.Proof.KShares

noncomputable section

namespace Cert.KernelIdeal.Launch

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.LibSharedLaunch (rest region unscopedBufs_eq)

variable {F : FTy → Type} [FloatOps F]

local notation "𝕄" => MT nD τ sig Unit (Elt F) ℕ (UR sig nD τ) ℕ

/-- The contents of a core's buffers, reference by reference: what a region's proof data are stated at. -/
abbrev TcVal (F : FTy → Type) : Type := (c : Dev nD) → (b : Ref sig .tc) → Buf (Elt F) ((c : Thread nD τ).loc b)

variable (dat0 : TcVal F → (c : Dev nD) → Dat τ (Elt F) Unit ℕ (UR sig nD τ) ℕ cfg0 c)
variable (dat1 : TcVal F → (c : Dev nD) → Dat τ (Elt F) Unit ℕ (UR sig nD τ) ℕ cfg1 c)
variable (m : (ℓ : Loc nD τ sig) → Buf (Elt F) ℓ)

abbrev VA : TcVal F := fun c b => Gen.V0 m c b

/-- What region 0 leaves in its two output arrays; every other reference as launched. -/
def outsA : Gen.Outs (F := F) := fun _ r c =>
  if h : r = main_v0_0 then h ▸ (dat0 (VA m) c).arrAt 1 cfg0.N
  else if h : r = main_v0_1 then h ▸ (dat0 (VA m) c).arrAt 2 cfg0.N
  else m (c, r)

/-- Region 1's entry contents: they depend on region 0's outputs only. -/
abbrev VB : TcVal F := fun c b => Gen.V5 m (outsA dat0 m) c b

/-- What the regions leave: region 0's outputs, and region 1's output array. -/
def outs : Gen.Outs (F := F) := fun J r c =>
  if h : r = main_v10 then h ▸ (dat1 (VB dat0 m) c).arrAt 7 cfg1.N
  else outsA dat0 m J r c

theorem outs_v0_0 (c : Dev nD) : outs dat0 dat1 m 1 main_v0_0 c = (dat0 (fun c b => Gen.V0 m c b) c).arrAt 1 cfg0.N := by
  unfold outs outsA
  rw [dif_neg (by decide), dif_pos rfl]

theorem outs_v0_1 (c : Dev nD) : outs dat0 dat1 m 1 main_v0_1 c = (dat0 (fun c b => Gen.V0 m c b) c).arrAt 2 cfg0.N := by
  unfold outs outsA
  rw [dif_neg (by decide), dif_neg (by decide), dif_pos rfl]

/-- Region 1's output is not read before region 1. -/
theorem V5_outs (c : Dev nD) : Gen.V5 m (outs dat0 dat1 m) c = Gen.V5 m (outsA dat0 m) c := by
  have h : ∀ r, r ≠ main_v10 → outs dat0 dat1 m 1 r c = outsA dat0 m 1 r c := fun r hr => dif_neg hr
  show StableHlo.after _ (StableHlo.after _ (StableHlo.after _ (StableHlo.after _ (Function.update (Function.update _ _ _) _ _)))) = _
  rw [h _ (by decide), h _ (by decide)]

theorem outs_v10' (c : Dev nD) : outs dat0 dat1 m 6 main_v10 c = (dat1 (VB dat0 m) c).arrAt 7 cfg1.N := dif_pos rfl

theorem outs_v10 (c : Dev nD) : outs dat0 dat1 m 6 main_v10 c = (dat1 (fun c b => Gen.V5 m (outs dat0 dat1 m) c b) c).arrAt 7 cfg1.N := by
  rw [show (fun c b => Gen.V5 m (outs dat0 dat1 m) c b : TcVal F) = VB dat0 m by funext c b; rw [V5_outs]]
  exact outs_v10' dat0 dat1 m c

/-- What the launch takes of a region's proof data at every entry contents `V`; `q` are the shares its inputs are held at. -/
structure Data {cfg : Pipeline.Cfg sig Λ₀} (dat : TcVal F → (c : Dev nD) → Dat τ (Elt F) Unit ℕ (UR sig nD τ) ℕ cfg c)
    (q : Fin cfg.W → PosShare TreeShare) : Prop where
  hA : ∀ V c w, (dat V c).A w = V c (Pipeline.arrRef cfg.spec w)
  hq : ∀ V c, (dat V c).q = q
  howed : ∀ V c t, (dat V c).owed t = 0
  hrec : ∀ V c, (dat V c).recorded 0 = Set.univ
  hbody : ∀ V c, Pipeline.BodyObligation (dat V c) (defs₀ (F := F)) Variants.none () Set.univ
  hin : ∀ V c, Pipeline.ΦA cfg.spec c ⊢ (dat V c).Φ 0
  hout : ∀ V c, (dat V c).Φ (Fin.last cfg.N) ⊢ Pipeline.ΦA cfg.spec c

/-- Every pipeline's proof data, each at its region's entry contents. -/
def pdats : (p : Fin 2) → (c : Dev nD) → Dat τ (Elt F) Unit ℕ (UR sig nD τ) ℕ (cfgs p) c
  | ⟨0, _⟩ => dat0 (VA m)
  | ⟨1, _⟩ => dat1 (VB dat0 m)

abbrev 𝒱₀ : Variants := Variants.none
abbrev L : GSem nD τ sig → Finset Unit := fun _ => ∅
abbrev lv : GSem nD τ sig → Unit → ℕ := fun _ _ => 0
abbrev E : Fin 3 → Dev nD → sProp 𝕄 := fun _ c => rest c

variable {dat0 dat1}

theorem V1_v0_0 (o : Gen.Outs (F := F)) (c : Dev nD) : Gen.V1 m o c main_v0_0 = o 1 main_v0_0 c := by
  simp only [Gen.V1, Function.update_of_ne (StableHlo.devRef_ne_of_ne (show main_v0_0 ≠ main_v0_1 by decide) :
    (Proc.devRef .tc main_v0_0 : DevRef τ sig) ≠ Proc.devRef .tc main_v0_1), Function.update_self]
theorem V1_v0_1 (o : Gen.Outs (F := F)) (c : Dev nD) : Gen.V1 m o c main_v0_1 = o 1 main_v0_1 c := Function.update_self ..
theorem V6_v10 (o : Gen.Outs (F := F)) (c : Dev nD) : Gen.V6 m o c main_v10 = o 6 main_v10 c := Function.update_self ..

/-- At region 0's exit each of its arrays holds what the valuation after it says. -/
theorem hF0 (h0 : Data dat0 fun _ => fullShare) (c : Dev nD) (w : Fin cfg0.W) :
    (dat0 (VA m) c).arrAt w cfg0.N = Gen.V1 m (outs dat0 dat1 m) c (Pipeline.arrRef spec0 w) := by
  match w with
  | 0 => rw [(dat0 (VA m) c).arrAt_in 0 rfl, h0.hA]; exact (Gen.V1_of m _ c main_arg0 (by decide)).symm
  | 1 => rw [← outs_v0_0 dat0 dat1 m c]; exact (V1_v0_0 m _ c).symm
  | 2 => rw [← outs_v0_1 dat0 dat1 m c]; exact (V1_v0_1 m _ c).symm
  | ⟨_ + 3, h⟩ => exact absurd h (Nat.not_lt.2 (Nat.le_add_left _ _))

/-- Off region 0's arrays the valuation after it is the launch's. -/
theorem hrest0 (c : Dev nD) (b : Ref sig .tc) (hb : b ∉ Finset.univ.image (Pipeline.arrRef spec0)) :
    Gen.V1 m (outs dat0 dat1 m) c b = VA m c b :=
  Gen.V1_of m _ c b (by
    simp only [List.mem_cons, List.not_mem_nil, or_false, not_or]
    exact ⟨fun e => hb (Finset.mem_image.mpr ⟨1, Finset.mem_univ _, e.symm⟩),
      fun e => hb (Finset.mem_image.mpr ⟨2, Finset.mem_univ _, e.symm⟩)⟩)

set_option backward.isDefEq.respectTransparency.types false in
/-- REGION 0, entered at the launch contents and left at `Gen.V1`: its three windows have three distinct arrays. -/
def reg0 (h0 : Data dat0 fun _ => fullShare) : RegionSeg (pcfgs (F := F)) adm (pdats dat0 dat1 m) () defs₀ 𝒱₀ L lv 0 :=
  have hs c := (pdats dat0 dat1 m 0 c).share_full (congrFun (h0.hq (VA m) c))
  region cfgs (pdats dat0 dat1 m) defs₀ 𝒱₀ L lv 0 (Gen.V0 m) (Gen.V1 m (outs dat0 dat1 m)) winFacts0.to₀ block_pos0 stage_whole0
    (h0.hbody _) (h0.howed _) (h0.hrec _) (h0.hin _) (h0.hout _)
    (fun c => Pipeline.arrays_of_unscopedBufs (p := 0) (pcfgs (F := F)) adm (pdats dat0 dat1 m) winFacts0 arr_whole0 c (hs c) (VA m c) (h0.hA _ c))
    (fun c => Pipeline.unscopedBufs_of_arrays (p := 0) (pcfgs (F := F)) adm winFacts0 arr_whole0 c (pdats dat0 dat1 m) (hs c)
      (VA m c) (fun b => Gen.V1 m (outs dat0 dat1 m) c b) _ (hF0 m h0 c) (hrest0 m c))

/-- Off region 1's output the valuation after it is the entry contents. -/
theorem V6_VB (c : Dev nD) (b : Ref sig .tc) (hb : b ∉ ([main_v10] : List (Ref sig .tc))) :
    Gen.V6 m (outs dat0 dat1 m) c b = VB dat0 m c b := by
  rw [Gen.V6_of m _ c b hb, V5_outs]

/-- At region 1's exit each of its arrays holds what the valuation after it says: an input's array its entry contents. -/
theorem hF1 (h1 : Data dat1 Shares.q1) (c : Dev nD) (w : Fin cfg1.W) :
    (dat1 (VB dat0 m) c).arrAt w cfg1.N = Gen.V6 m (outs dat0 dat1 m) c (Pipeline.arrRef spec1 w) := by
  rcases Bool.eq_false_or_eq_true (cfg1.win w).isOut with hw | hw
  · obtain rfl := (by decide : ∀ w : Fin 8, (cfg1.win w).isOut = true → w = 7) w hw
    rw [← outs_v10' dat0 dat1 m c]; exact (V6_v10 m _ c).symm
  · rw [(dat1 (VB dat0 m) c).arrAt_in w hw, h1.hA]
    exact (V6_VB m c _ ((by decide : ∀ w : Fin 8, (cfg1.win w).isOut = false → Pipeline.arrRef spec1 w ∉ [main_v10]) w hw)).symm

theorem hrest1 (c : Dev nD) (b : Ref sig .tc) (hb : b ∉ Finset.univ.image (Pipeline.arrRef spec1)) :
    Gen.V6 m (outs dat0 dat1 m) c b = Gen.V5 m (outs dat0 dat1 m) c b :=
  Gen.V6_of m _ c b (by
    simp only [List.mem_cons, List.not_mem_nil, or_false]
    exact fun e => hb (Finset.mem_image.mpr ⟨7, Finset.mem_univ _, e.symm⟩))

set_option backward.isDefEq.respectTransparency.types false in
/-- REGION 1, entered at `Gen.V5` and left at `Gen.V6`: its eight windows share five buffers, dealt by halves and joined again. -/
def reg1 (h1 : Data dat1 Shares.q1) : RegionSeg (pcfgs (F := F)) adm (pdats dat0 dat1 m) () defs₀ 𝒱₀ L lv 1 :=
  have ha c := Shares.arrays_eq_arrBufs1 (dat1 (VB dat0 m) c) (h1.hq _ c)
  region cfgs (pdats dat0 dat1 m) defs₀ 𝒱₀ L lv 1 (Gen.V5 m (outs dat0 dat1 m)) (Gen.V6 m (outs dat0 dat1 m)) winFacts₀1 block_pos1 stage_whole1
    (h1.hbody _) (h1.howed _) (h1.hrec _) (h1.hin _) (h1.hout _)
    (fun c => Entails.of_eq (unscopedBufs_eq (dat1 (VB dat0 m) c) _ _ _ winFacts₀1.arr_unscoped
      (ha c _ _ fun w => (h1.hA _ c w).trans (congrFun (V5_outs dat0 dat1 m c).symm _)) fun _ _ => rfl).symm)
    (fun c => Entails.of_eq (unscopedBufs_eq (dat1 (VB dat0 m) c) _ _ _ winFacts₀1.arr_unscoped
      (ha c _ _ (hF1 m h1 c)) (hrest1 m c)))

set_option backward.isDefEq.respectTransparency.types false in
/-- THE RUN: @main from memory `m` with zero counters terminates, every unscoped buffer ending at the last valuation `Gen.V7`. -/
theorem run_all_of (h0 : Data dat0 fun _ => fullShare) (h1 : Data dat1 Shares.q1) (ρ : Dev nD → PrngReg) :
    θ_run defs (onTc (τ := τ) (main (F := F))) ⟨m, fun _ => 0, ρ⟩ (fun r => ∀ c : Dev nD, ∀ b ∈ Pipeline.ucRefs τ sig,
      r.2.mem (((c : Thread nD τ)).1, b) = Gen.V7 m (outs dat0 dat1 m) c b) := by
  refine Pipeline.θ_run_regions_kit_dev (pcfgs (F := F)) adm (pdats dat0 dat1 m) () cellOf_inj emb₁ defs₀ 𝒱₀ L lv m ρ main
    (Gen.segs m (outs dat0 dat1 m) 𝒱₀ L lv E () (pdats dat0 dat1 m) (reg0 m h0) (reg1 m h1))
    (fun c Q => by rw [main_chain c, Seg.run_eq_chain]; exact .rfl)
    (fun c => by simp only [Gen.segs, Seg.pipes_host, Seg.pipes_region, Seg.pipes_nil]; decide)
    (O₀ := 0) (hL := fun _ _ => rfl) (G := fun _ => (BI.emp : sProp 𝕄))
    (u₀ := initOf (Pipeline.cells cfgs cellOf_inj) (Pipeline.launchToks cfgs cellOf_inj))
    (hu₀ := by
      rw [BI.bigSep_emp_const]
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iempintro)
    (T₀ := fun c => iprop(StableHlo.held (c : Thread nD τ) (Pipeline.ucRefs τ sig) (Gen.V0 m c) ∗ rest c))
    (Tₙ := fun c => StableHlo.held (c : Thread nD τ) (Pipeline.ucRefs τ sig) (Gen.V7 m (outs dat0 dat1 m) c))
    (hch := fun c => ⟨.rfl, .rfl, .rfl, .rfl, .rfl, .rfl, .rfl, sep_mono .rfl (by iintro ⟨-, HO⟩; iexact HO)⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.V7 m (outs dat0 dat1 m) c b)
    (hfin := fun c s' => by
      iintro ⟨Hh, HSI⟩
      unfold StableHlo.held
      imodintro
      iapply (pointsTo_read_all (Pipeline.ucRefs τ sig) (fun b => (((c : Thread nD τ)).1, b)) (Gen.V7 m (outs dat0 dat1 m) c) s')
      isplitl [Hh] <;> iassumption)
    (hQ := fun s h c => h c)

end Cert.KernelIdeal.Launch

end
-- ==== Proof.K0Body.lean ====
import proofs.«146407_j60627758350707_1_alg».proof.Proof.Gen.KernelIdeal.Launch
import proofs.«146407_j60627758350707_1_alg».proof.Proof.Gen.KernelIdeal.Skeleton
import proofs.«146407_j60627758350707_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev cond0_0 (i : grid0.Coords) : Prop := (Scalar.cmpi .ne (Scalar.extui (Scalar.cmpi .eq (BitVec.ofNat 32 (i 0).val) 0#32)) 0#32) = 1#1

/-- The reset is taken at the first point only, -/
theorem hcond0_0 : ∀ t : Fin cfg0.N, cond0_0 (grid0.coords t) ↔ t.val % 32 = 0 :=
  (by decide +kernel : ∀ t : Fin grid0.N, cond0_0 (grid0.coords t) ↔ t.val % 32 = 0)

abbrev cond0_1 (i : grid0.Coords) : Prop := k0_cond2 i = 1#1

/-- the final copy at the last point only. -/
theorem hcond0_1 : ∀ t : Fin cfg0.N, cond0_1 (grid0.coords t) ↔ t.val % 32 = 31 :=
  (by decide +kernel : ∀ t : Fin grid0.N, cond0_1 (grid0.coords t) ↔ t.val % 32 = 31)

theorem liveAt0_0 : ∀ t : Fin cfg0.N, cfg0.idle 0 (grid0.coords t) = false := by decide +kernel

theorem liveAt0_1 : ∀ t : Fin cfg0.N, cfg0.idle 1 (grid0.coords t) = false := by decide +kernel

theorem idleAt0_2 : ∀ t : Fin cfg0.N, ¬cond0_1 (grid0.coords t) → cfg0.idle 2 (grid0.coords t) = true := by decide +kernel

theorem noFlush0_2 : ∀ t : Fin cfg0.N, ¬cond0_1 (grid0.coords t) → (cfg0.win 2).flush t = false := by decide +kernel

theorem liveAt0_2 : ∀ t : Fin cfg0.N, cond0_1 (grid0.coords t) → cfg0.idle 2 (grid0.coords t) = false := by decide +kernel

abbrev ms0_0 (t : Fin cfg0.N) : Memref sig .tc .vmem S256x8192 .f32 := win0_0.stage (cfg0.slots t 0)
abbrev ms0_1 (t : Fin cfg0.N) : Memref sig .tc .vmem S256 .f32 := win0_1.stage (cfg0.slots t 1)
abbrev ms0_2 (t : Fin cfg0.N) : Memref sig .tc .vmem S8192 .f32 := win0_2.stage (cfg0.slots t 2)

abbrev scM0_0 : Memref sig .tc .vmem S8192 .f32 := Memref.whole cc0_scratch0

/-- Every scoped buffer but the accumulator, unopened: the region never touches them. -/
def Rest0 (c : Dev nD) : sProp 𝕄 :=
  Pipeline.scopedRestBut (Ix := Unit) (Name := ℕ) (U := UR sig nD τ) (Lvl := ℕ) (Val := Elt F) spec0 c [cc0_scratch0]

theorem PhiA0_eq (c : Dev nD) :
    (Pipeline.ΦA spec0 c : sProp 𝕄)
      = iprop(iprop((∃ d, owns (c : Thread nD τ) scM0_0 fullShare d) ∗ Rest0 (F := F) c) ∗ (∃ r, prngReg c r)) := by
  unfold Pipeline.ΦA Rest0; rw [Pipeline.scopedRest_split_of_list spec0 c [cc0_scratch0] (by decide) (by decide)]
  simp only [scM0_0, owns_whole]; try rfl

theorem hz1 : (![0] : Fin 1 → Nat) = fun _ => 0 := by decide
theorem hz2 : (![0, 0] : Fin 2 → Nat) = fun _ => 0 := by decide

variable (c : Dev nD) (i : grid0.Coords) (arg1 : Memref sig .tc .vmem S256x8192 .f32) (harg1 : arg1.IsWhole) (arg2 : Memref sig .tc .vmem S256 .f32) (harg2 : arg2.IsWhole) (arg3 : Memref sig .tc .vmem S8192 .f32) (harg3 : arg3.IsWhole) (arg4 : Memref sig .tc .vmem S8192 .f32) (harg4 : arg4.IsWhole) (x0 : Vec F S256x8192 .f32)

/-- First point: the strip's row sums are stored, and the accumulator, reset to zeros, ends at the strip's column sums. -/
theorem run0_A (hc0 : cond0_0 i) (hc1 : ¬cond0_1 i) (E : Set ℕ) (K : PUnit → sProp 𝕄) :
    iprop(owns (c : Thread nD τ) arg1 fullShare x0 ∗ (∃ d, owns (c : Thread nD τ) arg2 fullShare d) ∗ (∃ d, owns (c : Thread nD τ) arg4 fullShare d)
        ∗ (iprop(owns (c : Thread nD τ) arg1 fullShare x0 ∗ owns (c : Thread nD τ) arg2 fullShare (k0_pay2 x0) ∗ owns (c : Thread nD τ) arg4 fullShare (k0_pay3 x0 (k0_pay1 (F := F)))) -∗ K ⟨⟩))
      ⊢ wp frame (wpE (defs₀ (F := F)) Variants.none c none) E (cc0__sums_kernel i arg1 harg1 arg2 harg2 arg3 harg3 arg4 harg4) K := by
  simp only [cc0__sums_kernel_eq_skeleton]; unfold cc0__sums_kernel_skel
  unfold owns
  iintro ⟨⟨%f0, %hf0, H0⟩, ⟨%d1, %f1, -, H1⟩, ⟨%ds0, %fs0, -, HS0⟩, Hk⟩
  obtain rfl := harg1.eq_unread hf0
  sl_exec (disch := first | exact hc0 | exact hc1)
  sl_step
  iapply Hk
  isplitl [H0]
  · iexists _; isplitr; · ipureintro; exact harg1.read_unread _
    iexact H0
  isplitl [H1]
  · iexists _; isplitr; swap; · iexact H1
    ipureintro
    refine (View.read_writes_eq_canon _ _ _ (View.cover_of_tiledL _ S256.size (by sl_kernel_rfl))).trans ?_
    sl_unfold_words
    rw [View.canon_unit_zero (S := S256) hz1]; simp only [View.readAt_eq_ld, harg1.read_unread, harg4.read_unread, View.ld_unit_zero (S := S256x8192) hz2, View.ld_unit_zero (S := S8192) hz1, View.readCov_unit_zero (S := S8192) _ hz1]
  iexists _; isplitr; swap; · iexact HS0
  ipureintro
  refine (View.read_writes_eq_canon _ _ _ (View.cover_of_tiledL _ S8192.size (by sl_kernel_rfl))).trans ?_
  sl_unfold_words
  rw [View.canon_cons_unit_zero (S := S8192) hz1]; simp only [View.readAt_eq_ld, harg1.read_unread, harg4.read_unread, View.ld_unit_zero (S := S256x8192) hz2, View.ld_unit_zero (S := S8192) hz1, View.readCov_unit_zero (S := S8192) _ hz1]

/-- A middle point: the strip's column sums are added to what the accumulator held. -/
theorem run0_B (hc0 : ¬cond0_0 i) (hc1 : ¬cond0_1 i) (xs0 : Vec F S8192 .f32) (E : Set ℕ) (K : PUnit → sProp 𝕄) :
    iprop(owns (c : Thread nD τ) arg1 fullShare x0 ∗ (∃ d, owns (c : Thread nD τ) arg2 fullShare d) ∗ owns (c : Thread nD τ) arg4 fullShare xs0
        ∗ (iprop(owns (c : Thread nD τ) arg1 fullShare x0 ∗ owns (c : Thread nD τ) arg2 fullShare (k0_pay2 x0) ∗ owns (c : Thread nD τ) arg4 fullShare (k0_pay3 x0 xs0)) -∗ K ⟨⟩))
      ⊢ wp frame (wpE (defs₀ (F := F)) Variants.none c none) E (cc0__sums_kernel i arg1 harg1 arg2 harg2 arg3 harg3 arg4 harg4) K := by
  simp only [cc0__sums_kernel_eq_skeleton]; unfold cc0__sums_kernel_skel
  unfold owns
  iintro ⟨⟨%f0, %hf0, H0⟩, ⟨%d1, %f1, -, H1⟩, ⟨%fs0, %hfs0, HS0⟩, Hk⟩
  obtain rfl := harg1.eq_unread hf0; obtain rfl := harg4.eq_unread hfs0
  sl_exec (disch := first | exact hc0 | exact hc1)
  sl_step
  iapply Hk
  isplitl [H0]
  · iexists _; isplitr; · ipureintro; exact harg1.read_unread _
    iexact H0
  isplitl [H1]
  · iexists _; isplitr; swap; · iexact H1
    ipureintro
    refine (View.read_writes_eq_canon _ _ _ (View.cover_of_tiledL _ S256.size (by sl_kernel_rfl))).trans ?_
    sl_unfold_words
    rw [View.canon_unit_zero (S := S256) hz1]; simp only [View.readAt_eq_ld, harg1.read_unread, harg4.read_unread, View.ld_unit_zero (S := S256x8192) hz2, View.ld_unit_zero (S := S8192) hz1, View.readCov_unit_zero (S := S8192) _ hz1]
  iexists _; isplitr; swap; · iexact HS0
  ipureintro
  refine (View.read_writes_eq_canon _ _ _ (View.cover_of_tiledL _ S8192.size (by sl_kernel_rfl))).trans ?_
  sl_unfold_words
  rw [View.canon_unit_zero (S := S8192) hz1]; simp only [View.readAt_eq_ld, harg1.read_unread, harg4.read_unread, View.ld_unit_zero (S := S256x8192) hz2, View.ld_unit_zero (S := S8192) hz1, View.readCov_unit_zero (S := S8192) _ hz1]

/-- Last point: as a middle point, and the finished accumulator is copied into the column sums' block. -/
theorem run0_C (hc0 : ¬cond0_0 i) (hc1 : cond0_1 i) (xs0 : Vec F S8192 .f32) (E : Set ℕ) (K : PUnit → sProp 𝕄) :
    iprop(owns (c : Thread nD τ) arg1 fullShare x0 ∗ (∃ d, owns (c : Thread nD τ) arg2 fullShare d) ∗ (∃ d, owns (c : Thread nD τ) arg3 fullShare d) ∗ owns (c : Thread nD τ) arg4 fullShare xs0
        ∗ (iprop(owns (c : Thread nD τ) arg1 fullShare x0 ∗ owns (c : Thread nD τ) arg2 fullShare (k0_pay2 x0) ∗ owns (c : Thread nD τ) arg3 fullShare (k0_pay3 x0 xs0) ∗ owns (c : Thread nD τ) arg4 fullShare (k0_pay3 x0 xs0)) -∗ K ⟨⟩))
      ⊢ wp frame (wpE (defs₀ (F := F)) Variants.none c none) E (cc0__sums_kernel i arg1 harg1 arg2 harg2 arg3 harg3 arg4 harg4) K := by
  simp only [cc0__sums_kernel_eq_skeleton]; unfold cc0__sums_kernel_skel
  unfold owns
  iintro ⟨⟨%f0, %hf0, H0⟩, ⟨%d1, %f1, -, H1⟩, ⟨%d2, %f2, -, H2⟩, ⟨%fs0, %hfs0, HS0⟩, Hk⟩
  obtain rfl := harg1.eq_unread hf0; obtain rfl := harg4.eq_unread hfs0
  sl_exec (disch := first | exact hc0 | exact hc1)
  sl_step
  iapply Hk
  isplitl [H0]
  · iexists _; isplitr; · ipureintro; exact harg1.read_unread _
    iexact H0
  isplitl [H1]
  · iexists _; isplitr; swap; · iexact H1
    ipureintro
    refine (View.read_writes_eq_canon _ _ _ (View.cover_of_tiledL _ S256.size (by sl_kernel_rfl))).trans ?_
    sl_unfold_words
    rw [View.canon_unit_zero (S := S256) hz1]; simp only [View.readAt_eq_ld, harg1.read_unread, harg4.read_unread, View.ld_unit_zero (S := S256x8192) hz2, View.ld_unit_zero (S := S8192) hz1, View.readCov_unit_zero (S := S8192) _ hz1]
  isplitl [H2]
  · iexists _; isplitr; swap; · iexact H2
    ipureintro
    refine (View.read_writes_eq_canon _ _ _ (View.cover_of_tiledL _ S8192.size (by sl_kernel_rfl))).trans ?_
    sl_unfold_words
    rw [View.canon_unit_zero (S := S8192) hz1]; simp only [View.readAt_eq_ld, harg1.read_unread, harg4.read_unread, View.ld_unit_zero (S := S256x8192) hz2, View.ld_unit_zero (S := S8192) hz1, View.readCov_unit_zero (S := S8192) _ hz1]
  iexists _; isplitr; swap; · iexact HS0
  ipureintro
  refine (View.read_writes_eq_canon _ _ _ (View.cover_of_tiledL _ S8192.size (by sl_kernel_rfl))).trans ?_
  sl_unfold_words
  rw [View.canon_unit_zero (S := S8192) hz1]; simp only [View.readAt_eq_ld, harg1.read_unread, harg4.read_unread, View.ld_unit_zero (S := S256x8192) hz2, View.ld_unit_zero (S := S8192) hz1, View.readCov_unit_zero (S := S8192) _ hz1]

end Cert.KernelIdeal.R0

end
-- ==== Proof.K0Frame.lean ====
import proofs.«146407_j60627758350707_1_alg».proof.Proof.K0Body

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The accumulator after point `n`: the column sums of strips `0 … n`, folded from zeros. -/
def acc0 (c : Dev nD) : (n : ℕ) → n < cfg0.N → Vec F S8192 .f32
  | 0, hn => k0_pay3 (iblk0 V c 0 ⟨0, hn⟩) k0_pay1
  | n + 1, hn => k0_pay3 (iblk0 V c 0 ⟨n + 1, hn⟩) (acc0 c n (Nat.lt_of_succ_lt hn))

theorem acc0_zero (c : Dev nD) (t : Fin cfg0.N) (hz : t.val = 0) : acc0 V c t.val t.isLt = k0_pay3 (iblk0 V c 0 t) k0_pay1 := by
  obtain ⟨n, hn⟩ := t
  cases n with
  | zero => rfl
  | succ n => exact absurd hz (Nat.succ_ne_zero n)

theorem acc0_pos (c : Dev nD) (t : Fin cfg0.N) (hz : t.val ≠ 0) :
    acc0 V c t.val t.isLt = k0_pay3 (iblk0 V c 0 t) (acc0 V c (t.val - 1) (Nat.lt_of_le_of_lt (Nat.sub_le _ _) t.isLt)) := by
  obtain ⟨n, hn⟩ := t
  cases n with
  | zero => exact absurd rfl hz
  | succ n => rfl

/-- Between points the invariant holds the accumulator at `acc0`; before the first point, at anything. -/
def PhiS (c : Dev nD) : (n : ℕ) → n ≤ cfg0.N → sProp 𝕄
  | 0, _ => Pipeline.ΦA spec0 c
  | n + 1, hn => iprop(iprop(owns (c : Thread nD τ) scM0_0 fullShare (acc0 V c n hn) ∗ Rest0 (F := F) c) ∗ (∃ r, prngReg c r))

theorem PhiS_zero (c : Dev nD) (n : ℕ) (h : n ≤ cfg0.N) (hz : n = 0) : PhiS V c n h = Pipeline.ΦA spec0 c := by
  subst hz; rfl

theorem PhiS_pos (c : Dev nD) (n : ℕ) (h : n ≤ cfg0.N) (hz : n ≠ 0) :
    PhiS V c n h = iprop(iprop(owns (c : Thread nD τ) scM0_0 fullShare (acc0 V c (n - 1) (by omega)) ∗ Rest0 (F := F) c) ∗ (∃ r, prngReg c r)) := by
  cases n with
  | zero => exact absurd rfl hz
  | succ n => rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => k0_pay2 (iblk0 V c 0 t)
    | ⟨2, _⟩ => acc0 V c t.val t.isLt
  Φ t := PhiS V c t.val (Nat.le_of_lt_succ t.isLt)
  q _ := fullShare
  owed _ := 0

theorem A_eq0 (c : Dev nD) (w : Fin cfg0.W) : (dat0 V c).A w = V c (Pipeline.arrRef spec0 w) := rfl

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := rfl
theorem after0_1 (c : Dev nD) (t : Fin cfg0.N) : (dat0 V c).after 1 t = k0_pay2 (iblk0 V c 0 t) := rfl
theorem after0_2 (c : Dev nD) (t : Fin cfg0.N) : (dat0 V c).after 2 t = acc0 V c t.val t.isLt := rfl

theorem before0_0 (c : Dev nD) (t : Fin cfg0.N) (d) : (dat0 V c).before 0 t d = iblk0 V c 0 t :=
  ((dat0 V c).before_in_eq_fetched 0 rfl (fun _ => rfl) (fun _ _ _ => rfl) (fun _ => rfl) t d).trans rfl

def bodyPre (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

/-- At each point the run of its case applies, and what it leaves is `dat0`'s contents. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0]
  rw [show (dat0 V c).owesAt () t.succ = (dat0 V c).owesAt () t.castSucc from rfl]
  rw [show (dat0 V c).Φ t.succ = iprop(iprop(owns (c : Thread nD τ) scM0_0 fullShare (acc0 V c t.val t.isLt) ∗ Rest0 (F := F) c) ∗ (∃ r, prngReg c r)) from rfl]
  have hN : t.val < 32 := lt_of_lt_of_eq t.isLt (show cfg0.N = 32 from N_0)
  rw [show (dat0 V c).leavesExact 0 t = owns (c : Thread nD τ) (ms0_0 t) fullShare ((dat0 V c).after 0 t) from by
      unfold Dat.leavesExact; rw [liveAt0_0 t], after0_0]
  rw [show (dat0 V c).leavesExact 1 t = owns (c : Thread nD τ) (ms0_1 t) fullShare ((dat0 V c).after 1 t) from by
      unfold Dat.leavesExact; rw [liveAt0_1 t], after0_1]
  rw [PhiS_castSucc V c t]
  by_cases h0 : t.val % 32 = 0
  · have hz : t.val = 0 := by omega
    have h1 : ¬cond0_1 (grid0.coords t) := fun h => by have := (hcond0_1 t).mp h; omega
    rw [Dat.leavesExact_idle (dat0 V c) 2 t (idleAt0_2 t h1) (noFlush0_2 t h1), acc0_zero V c t hz, PhiS_zero V c _ _ hz, PhiA0_eq]
    iintro ⟨⟨⟨HS0, Hr⟩, Hg⟩, Ho, ⟨%d0, H0⟩, ⟨%d1, H1⟩, H2⟩
    iapply (run0_A c (grid0.coords t) _ _ _ _ _ _ _ _ (iblk0 V c 0 t) ((hcond0_0 t).mpr h0) h1 Set.univ _)
    isplitl [H0]; · iexact H0
    isplitl [H1]; · iexists _; iexact H1
    isplitl [HS0]; · iexact HS0
    iintro ⟨H0, H1, HS0⟩
    iframe
  · have hz : t.val ≠ 0 := by omega
    have hc0 : ¬cond0_0 (grid0.coords t) := fun h => h0 ((hcond0_0 t).mp h)
    rw [acc0_pos V c t hz, PhiS_pos V c _ _ hz]
    by_cases h1 : t.val % 32 = 31
    · rw [show (dat0 V c).leavesExact 2 t = owns (c : Thread nD τ) (ms0_2 t) fullShare ((dat0 V c).after 2 t) from by
        unfold Dat.leavesExact; rw [liveAt0_2 t ((hcond0_1 t).mpr h1)], after0_2, acc0_pos V c t hz]
      iintro ⟨⟨⟨HS0, Hr⟩, Hg⟩, Ho, ⟨%d0, H0⟩, ⟨%d1, H1⟩, ⟨%d2, H2⟩⟩
      iapply (run0_C c (grid0.coords t) _ _ _ _ _ _ _ _ (iblk0 V c 0 t) hc0 ((hcond0_1 t).mpr h1) _ Set.univ _)
      isplitl [H0]; · iexact H0
      isplitl [H1]; · iexists _; iexact H1
      isplitl [H2]; · iexists _; iexact H2
      isplitl [HS0]; · iexact HS0
      iintro ⟨H0, H1, H2, HS0⟩
      iframe
    · have hc1 : ¬cond0_1 (grid0.coords t) := fun h => h1 ((hcond0_1 t).mp h)
      rw [Dat.leavesExact_idle (dat0 V c) 2 t (idleAt0_2 t hc1) (noFlush0_2 t hc1)]
      iintro ⟨⟨⟨HS0, Hr⟩, Hg⟩, Ho, ⟨%d0, H0⟩, ⟨%d1, H1⟩, H2⟩
      iapply (run0_B c (grid0.coords t) _ _ _ _ _ _ _ _ (iblk0 V c 0 t) hc0 hc1 _ Set.univ _)
      isplitl [H0]; · iexact H0
      isplitl [H1]; · iexists _; iexact H1
      isplitl [HS0]; · iexact HS0
      iintro ⟨H0, H1, HS0⟩
      iframe

theorem body_obligation0 (c : Dev nD) : BodyObligation (dat0 (F := F) V c) (defs₀ (F := F)) Variants.none () Set.univ := fun t => by
  rw [bigSep_W0, bigSep_W0]
  exact sound_body V c t

theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

theorem hout0 (c : Dev nD) : (dat0 V c).Φ (Fin.last cfg0.N) ⊢ Pipeline.ΦA spec0 c := by
  rw [show (dat0 V c).Φ (Fin.last cfg0.N) = PhiS V c cfg0.N (Nat.le_refl _) from rfl,
    PhiS_pos V c _ _ (by rw [show cfg0.N = 32 from N_0]; omega), PhiA0_eq]
  iintro ⟨⟨HS0, Hr⟩, Hg⟩
  isplitl [HS0 Hr]
  · isplitl [HS0]
    · iexists _; iexact HS0
    iexact Hr
  iexact Hg

end Cert.KernelIdeal.R0

end
-- ==== Proof.K1Body.lean ====
import proofs.«146407_j60627758350707_1_alg».proof.Proof.Gen.KernelIdeal.Launch
import proofs.«146407_j60627758350707_1_alg».proof.Proof.Gen.KernelIdeal.Skeleton
import proofs.«146407_j60627758350707_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

def iblk1 (V : (c : Dev nD) → (b : Ref sig .tc) → Buf (Elt F) ((c : Thread nD τ).loc b)) (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 16 = 0 := by decide +kernel

abbrev cond1_1 (i : grid1.Coords) : Prop := k1_cond2 i = 1#1
theorem hcond1_1 : ∀ t : Fin cfg1.N, cond1_1 (grid1.coords t) ↔ t.val % 16 = 15 := by decide +kernel

theorem idle1_7 : ∀ t : Fin cfg1.N, ¬t.val % 16 = 15 → cfg1.idle 7 (grid1.coords t) = true ∧ (cfg1.win 7).flush t = false := by decide +kernel
theorem live1_7 : ∀ t : Fin cfg1.N, t.val % 16 = 15 → cfg1.idle 7 (grid1.coords t) = false := by decide +kernel

abbrev scM1_0 : Memref sig .tc .vmem S1024x512 .f32 := Memref.whole cc1_scratch0

def Rest1 (c : Dev nD) : sProp 𝕄 :=
  Pipeline.scopedRestBut (Ix := Unit) (Name := ℕ) (U := UR sig nD τ) (Lvl := ℕ) (Val := Elt F) spec1 c [cc1_scratch0]

theorem PhiA1_eq (c : Dev nD) :
    (Pipeline.ΦA spec1 c : sProp 𝕄) = iprop(((∃ d, owns (c : Thread nD τ) scM1_0 fullShare d) ∗ Rest1 c) ∗ (∃ r, prngReg c r)) := by
  unfold Pipeline.ΦA Rest1; rw [Pipeline.scopedRest_split_of_list spec1 c [cc1_scratch0] (by decide) (by decide)]; simp only [scM1_0, owns_whole]; try rfl

theorem hz2 : (![0, 0] : Fin 2 → Nat) = fun _ => 0 := funext fun a => by fin_cases a <;> rfl
theorem hz1 : (![0] : Fin 1 → Nat) = fun _ => 0 := funext fun a => by fin_cases a <;> rfl

variable (c : Dev nD) (i : grid1.Coords) (arg2 : Memref sig .tc .vmem S1024x512 .f32) (harg2 : arg2.IsWhole) (arg3 : Memref sig .tc .vmem S512x1024 .f32) (harg3 : arg3.IsWhole) (arg4 : Memref sig .tc .vmem S1024x512 .f32) (harg4 : arg4.IsWhole) (arg5 : Memref sig .tc .vmem S512x512 .f32) (harg5 : arg5.IsWhole) (arg6 : Memref sig .tc .vmem S1024 .f32) (harg6 : arg6.IsWhole) (arg7 : Memref sig .tc .vmem S512 .f32) (harg7 : arg7.IsWhole) (arg8 : Memref sig .tc .vmem S1024 .f32) (harg8 : arg8.IsWhole) (arg9 : Memref sig .tc .vmem S1024 .f32) (harg9 : arg9.IsWhole) (arg10 : Memref sig .tc .vmem S1024x512 .f32) (harg10 : arg10.IsWhole)
  (x0 : Vec F S1024x512 .f32) (x1 : Vec F S512x1024 .f32) (x2 : Vec F S1024x512 .f32) (x3 : Vec F S512x512 .f32) (x4 : Vec F S1024 .f32) (x5 : Vec F S512 .f32) (x6 : Vec F S1024 .f32)

-- On a whole buffer the raw contents of x read back as x.
theorem owns_unread {S : Shape} (m : Memref sig .tc .vmem S .f32) (hm : m.IsWhole) (x : Vec F S .f32) :
    (m.view.loc (c : Thread nD τ) ↦[m.view.set]{fullShare} hm.unread x : sProp 𝕄)
      ⊢ iprop(∃ f, ⌜m.view.read (Elt F) f = x⌝ ∗ (m.view.loc (c : Thread nD τ) ↦[m.view.set]{fullShare} f)) := by
  iintro H; iexists _; isplitr; · ipureintro; exact hm.read_unread _
  iexact H

abbrev ins : sProp 𝕄 := iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6)

-- At the first reduction step the accumulator, whatever it held, is left at one step from zeros.
theorem runA (hc0 : cond1_0 i) (hc1 : ¬cond1_1 i) (E : Set ℕ) (K : PUnit → sProp 𝕄) :
    iprop(ins c arg2 arg3 arg4 arg5 arg6 arg7 arg8 x0 x1 x2 x3 x4 x5 x6 ∗ (∃ d, owns (c : Thread nD τ) arg10 fullShare d)
        ∗ (iprop(ins c arg2 arg3 arg4 arg5 arg6 arg7 arg8 x0 x1 x2 x3 x4 x5 x6 ∗ owns (c : Thread nD τ) arg10 fullShare (k1_pay2 x0 x1 x5 x3 (k1_pay1 (F := F)))) -∗ K ⟨⟩))
      ⊢ wp frame (wpE (defs₀ (F := F)) Variants.none c none) E (cc1__main_kernel i arg2 harg2 arg3 harg3 arg4 harg4 arg5 harg5 arg6 harg6 arg7 harg7 arg8 harg8 arg9 harg9 arg10 harg10) K := by
  simp only [cc1__main_kernel_eq_skeleton]; unfold cc1__main_kernel_skel
  unfold ins owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩⟩, ⟨%ds0, %fs0, -, HS0⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
  sl_exec (disch := first | exact hc0 | exact hc1)
  sl_step
  iapply Hk
  isplitl [H0 H1 H2 H3 H4 H5 H6]
  · isplitl [H0]; · iapply owns_unread c _ harg2; iexact H0
    isplitl [H1]; · iapply owns_unread c _ harg3; iexact H1
    isplitl [H2]; · iapply owns_unread c _ harg4; iexact H2
    isplitl [H3]; · iapply owns_unread c _ harg5; iexact H3
    isplitl [H4]; · iapply owns_unread c _ harg6; iexact H4
    isplitl [H5]; · iapply owns_unread c _ harg7; iexact H5
    iapply owns_unread c _ harg8; iexact H6
  iexists _; isplitr; swap; · iexact HS0
  ipureintro
  refine (View.read_writes_eq_canon _ _ _ (View.cover_of_tiledL _ S1024x512.size (by sl_kernel_rfl))).trans ?_
  sl_unfold_words
  rw [View.canon_cons_unit_zero (S := S1024x512) hz2, View.readCov_unit_zero (S := S1024x512) _ hz2]
  simp only [View.readAt_eq_ld, Memref.IsWhole.read_unread, View.ld_unit_zero (S := S1024x512) hz2, View.ld_unit_zero (S := S512x1024) hz2, View.ld_unit_zero (S := S512x512) hz2, View.ld_unit_zero (S := S1024) hz1, View.ld_unit_zero (S := S512) hz1, View.readCov_unit_zero (S := S1024x512) _ hz2]

-- At a middle step the accumulator gets one step added.
theorem runB (hc0 : ¬cond1_0 i) (hc1 : ¬cond1_1 i) (xs0 : Vec F S1024x512 .f32) (E : Set ℕ) (K : PUnit → sProp 𝕄) :
    iprop(ins c arg2 arg3 arg4 arg5 arg6 arg7 arg8 x0 x1 x2 x3 x4 x5 x6 ∗ owns (c : Thread nD τ) arg10 fullShare xs0
        ∗ (iprop(ins c arg2 arg3 arg4 arg5 arg6 arg7 arg8 x0 x1 x2 x3 x4 x5 x6 ∗ owns (c : Thread nD τ) arg10 fullShare (k1_pay2 x0 x1 x5 x3 xs0)) -∗ K ⟨⟩))
      ⊢ wp frame (wpE (defs₀ (F := F)) Variants.none c none) E (cc1__main_kernel i arg2 harg2 arg3 harg3 arg4 harg4 arg5 harg5 arg6 harg6 arg7 harg7 arg8 harg8 arg9 harg9 arg10 harg10) K := by
  simp only [cc1__main_kernel_eq_skeleton]; unfold cc1__main_kernel_skel
  unfold ins owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩⟩, ⟨%fs0, %hfs0, HS0⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hfs0
  sl_exec (disch := first | exact hc0 | exact hc1)
  sl_step
  iapply Hk
  isplitl [H0 H1 H2 H3 H4 H5 H6]
  · isplitl [H0]; · iapply owns_unread c _ harg2; iexact H0
    isplitl [H1]; · iapply owns_unread c _ harg3; iexact H1
    isplitl [H2]; · iapply owns_unread c _ harg4; iexact H2
    isplitl [H3]; · iapply owns_unread c _ harg5; iexact H3
    isplitl [H4]; · iapply owns_unread c _ harg6; iexact H4
    isplitl [H5]; · iapply owns_unread c _ harg7; iexact H5
    iapply owns_unread c _ harg8; iexact H6
  iexists _; isplitr; swap; · iexact HS0
  ipureintro
  refine (View.read_writes_eq_canon _ _ _ (View.cover_of_tiledL _ S1024x512.size (by sl_kernel_rfl))).trans ?_
  sl_unfold_words
  rw [View.canon_unit_zero hz2]
  simp only [View.readAt_eq_ld, Memref.IsWhole.read_unread, View.ld_unit_zero (S := S1024x512) hz2, View.ld_unit_zero (S := S512x1024) hz2, View.ld_unit_zero (S := S512x512) hz2, View.ld_unit_zero (S := S1024) hz1, View.ld_unit_zero (S := S512) hz1, View.readCov_unit_zero (S := S1024x512) _ hz2]

-- At the last step the accumulator gets its step and the output block, whatever it held, the row sums over the finished accumulator.
theorem runC (hc0 : ¬cond1_0 i) (hc1 : cond1_1 i) (xs0 : Vec F S1024x512 .f32) (E : Set ℕ) (K : PUnit → sProp 𝕄) :
    iprop(ins c arg2 arg3 arg4 arg5 arg6 arg7 arg8 x0 x1 x2 x3 x4 x5 x6 ∗ (∃ d, owns (c : Thread nD τ) arg9 fullShare d) ∗ owns (c : Thread nD τ) arg10 fullShare xs0
        ∗ (iprop(ins c arg2 arg3 arg4 arg5 arg6 arg7 arg8 x0 x1 x2 x3 x4 x5 x6 ∗ owns (c : Thread nD τ) arg9 fullShare (k1_pay3 x4 x6 x2 (k1_pay2 x0 x1 x5 x3 xs0)) ∗ owns (c : Thread nD τ) arg10 fullShare (k1_pay2 x0 x1 x5 x3 xs0)) -∗ K ⟨⟩))
      ⊢ wp frame (wpE (defs₀ (F := F)) Variants.none c none) E (cc1__main_kernel i arg2 harg2 arg3 harg3 arg4 harg4 arg5 harg5 arg6 harg6 arg7 harg7 arg8 harg8 arg9 harg9 arg10 harg10) K := by
  simp only [cc1__main_kernel_eq_skeleton]; unfold cc1__main_kernel_skel
  unfold ins owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩⟩, ⟨%d7, %f7, -, H7⟩, ⟨%fs0, %hfs0, HS0⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hfs0
  sl_exec (disch := first | exact hc0 | exact hc1)
  sl_step
  iapply Hk
  isplitl [H0 H1 H2 H3 H4 H5 H6]
  · isplitl [H0]; · iapply owns_unread c _ harg2; iexact H0
    isplitl [H1]; · iapply owns_unread c _ harg3; iexact H1
    isplitl [H2]; · iapply owns_unread c _ harg4; iexact H2
    isplitl [H3]; · iapply owns_unread c _ harg5; iexact H3
    isplitl [H4]; · iapply owns_unread c _ harg6; iexact H4
    isplitl [H5]; · iapply owns_unread c _ harg7; iexact H5
    iapply owns_unread c _ harg8; iexact H6
  isplitl [H7]
  · iexists _; isplitr; swap; · iexact H7
    ipureintro
    refine (View.read_writes_eq_canon _ _ _ (View.cover_of_tiledL _ S1024.size (by sl_kernel_rfl))).trans ?_
    sl_unfold_words
    rw [View.canon_unit_zero hz1]
    simp only [View.readAt_eq_ld, Memref.IsWhole.read_unread, View.ld_unit_zero (S := S1024x512) hz2, View.ld_unit_zero (S := S512x1024) hz2, View.ld_unit_zero (S := S512x512) hz2, View.ld_unit_zero (S := S1024) hz1, View.ld_unit_zero (S := S512) hz1, View.readCov_unit_zero (S := S1024x512) _ hz2]
  iexists _; isplitr; swap; · iexact HS0
  ipureintro
  refine (View.read_writes_eq_canon _ _ _ (View.cover_of_tiledL _ S1024x512.size (by sl_kernel_rfl))).trans ?_
  sl_unfold_words
  rw [View.canon_unit_zero hz2]
  simp only [View.readAt_eq_ld, Memref.IsWhole.read_unread, View.ld_unit_zero (S := S1024x512) hz2, View.ld_unit_zero (S := S512x1024) hz2, View.ld_unit_zero (S := S512x512) hz2, View.ld_unit_zero (S := S1024) hz1, View.ld_unit_zero (S := S512) hz1, View.readCov_unit_zero (S := S1024x512) _ hz2]

end Cert.KernelIdeal.R1

end
-- ==== Proof.K1Frame.lean ====
import proofs.«146407_j60627758350707_1_alg».proof.Proof.K1Body

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev step1 (c : Dev nD) (t : Fin cfg1.N) (xs : Vec F S1024x512 .f32) : Vec F S1024x512 .f32 :=
  k1_pay2 (iblk1 V c 0 t) (iblk1 V c 1 t) (iblk1 V c 5 t) (iblk1 V c 3 t) xs

-- The accumulator after point n: one step at every point, from zeros where the reduction coordinate is 0.
def acc1 (c : Dev nD) : (n : ℕ) → n < cfg1.N → Vec F S1024x512 .f32
  | 0, hn => step1 V c ⟨0, hn⟩ k1_pay1
  | n + 1, hn => step1 V c ⟨n + 1, hn⟩ (if (n + 1) % 16 = 0 then k1_pay1 else acc1 c n (Nat.lt_of_succ_lt hn))

theorem acc1_eq (c : Dev nD) (t : Fin cfg1.N) :
    acc1 V c t.val t.isLt = step1 V c t (if t.val % 16 = 0 then k1_pay1 else acc1 V c (t.val - 1) (Nat.lt_of_le_of_lt (Nat.sub_le _ _) t.isLt)) := by
  obtain ⟨n, hn⟩ := t; cases n <;> rfl

-- Between points the accumulator holds what the point before left; before the first point, anything.
def PhiS1 (c : Dev nD) : (n : ℕ) → n ≤ cfg1.N → sProp 𝕄
  | 0, _ => Pipeline.ΦA spec1 c
  | n + 1, hn => iprop((owns (c : Thread nD τ) scM1_0 fullShare (acc1 V c n hn) ∗ Rest1 c) ∗ (∃ r, prngReg c r))

theorem PhiS1_pos (c : Dev nD) (n : ℕ) (h : n ≤ cfg1.N) (hz : n ≠ 0) :
    PhiS1 V c n h = iprop((owns (c : Thread nD τ) scM1_0 fullShare (acc1 V c (n - 1) (by omega)) ∗ Rest1 c) ∗ (∃ r, prngReg c r)) := by
  cases n with
  | zero => exact absurd rfl hz
  | succ n => rfl

-- What the accumulator holds can be forgotten.
theorem Phi_out1 (c : Dev nD) : ∀ (n : ℕ) (h : n ≤ cfg1.N), PhiS1 V c n h ⊢ Pipeline.ΦA spec1 c
  | 0, _ => Idealize.SL.BI.Entails.refl _
  | n + 1, h => by
    rw [PhiA1_eq]; unfold PhiS1
    iintro ⟨⟨HS0, R⟩, Hg⟩
    iframe
    iexists _; iexact HS0

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => k1_pay3 (iblk1 V c 4 t) (iblk1 V c 6 t) (iblk1 V c 2 t) (acc1 V c t.val t.isLt)
  Φ t := PhiS1 V c t.val (Nat.le_of_lt_succ t.isLt)
  q := fun
    | ⟨0, _⟩ => fullShare.left
    | ⟨1, _⟩ => fullShare.right
    | ⟨2, _⟩ => fullShare.left
    | ⟨3, _⟩ => fullShare.right
    | ⟨4, _⟩ => fullShare.left
    | ⟨5, _⟩ => fullShare.right
    | ⟨6, _⟩ => fullShare
    | ⟨7, _⟩ => fullShare
  owed _ := 0

theorem A_eq1 (c : Dev nD) (w : Fin cfg1.W) : (dat1 V c).A w = V c (Pipeline.arrRef spec1 w) := rfl

theorem before1 (c : Dev nD) (t : Fin cfg1.N) :
    (∀ d, (dat1 V c).before 0 t d = iblk1 V c 0 t) ∧ (∀ d, (dat1 V c).before 1 t d = iblk1 V c 1 t) ∧ (∀ d, (dat1 V c).before 2 t d = iblk1 V c 2 t) ∧ (∀ d, (dat1 V c).before 3 t d = iblk1 V c 3 t) ∧ (∀ d, (dat1 V c).before 4 t d = iblk1 V c 4 t) ∧ (∀ d, (dat1 V c).before 5 t d = iblk1 V c 5 t) ∧ (∀ d, (dat1 V c).before 6 t d = iblk1 V c 6 t) := by
  refine ⟨?_, ?_, ?_, ?_, ?_, ?_, ?_⟩ <;>
    exact fun d => ((dat1 V c).before_in_eq_fetched _ rfl (fun _ => rfl) (fun _ _ _ => rfl) (fun _ => rfl) t d).trans rfl

abbrev ms1_0 (t : Fin cfg1.N) : Memref sig .tc .vmem S1024x512 .f32 := win1_0.stage (cfg1.slots t 0)
abbrev ms1_1 (t : Fin cfg1.N) : Memref sig .tc .vmem S512x1024 .f32 := win1_1.stage (cfg1.slots t 1)
abbrev ms1_2 (t : Fin cfg1.N) : Memref sig .tc .vmem S1024x512 .f32 := win1_2.stage (cfg1.slots t 2)
abbrev ms1_3 (t : Fin cfg1.N) : Memref sig .tc .vmem S512x512 .f32 := win1_3.stage (cfg1.slots t 3)
abbrev ms1_4 (t : Fin cfg1.N) : Memref sig .tc .vmem S1024 .f32 := win1_4.stage (cfg1.slots t 4)
abbrev ms1_5 (t : Fin cfg1.N) : Memref sig .tc .vmem S512 .f32 := win1_5.stage (cfg1.slots t 5)
abbrev ms1_6 (t : Fin cfg1.N) : Memref sig .tc .vmem S1024 .f32 := win1_6.stage (cfg1.slots t 6)
abbrev ms1_7 (t : Fin cfg1.N) : Memref sig .tc .vmem S1024 .f32 := win1_7.stage (cfg1.slots t 7)

theorem sound_body1 (c : Dev nD) (t : Fin cfg1.N) :
    iprop(PhiS1 V c t.val (Nat.le_of_lt t.isLt) ∗ (dat1 V c).owesAt () t.castSucc
      ∗ (∃ d, owns (c : Thread nD τ) (ms1_0 t) fullShare ((dat1 V c).before 0 t d))
      ∗ (∃ d, owns (c : Thread nD τ) (ms1_1 t) fullShare ((dat1 V c).before 1 t d))
      ∗ (∃ d, owns (c : Thread nD τ) (ms1_2 t) fullShare ((dat1 V c).before 2 t d))
      ∗ (∃ d, owns (c : Thread nD τ) (ms1_3 t) fullShare ((dat1 V c).before 3 t d))
      ∗ (∃ d, owns (c : Thread nD τ) (ms1_4 t) fullShare ((dat1 V c).before 4 t d))
      ∗ (∃ d, owns (c : Thread nD τ) (ms1_5 t) fullShare ((dat1 V c).before 5 t d))
      ∗ (∃ d, owns (c : Thread nD τ) (ms1_6 t) fullShare ((dat1 V c).before 6 t d))
      ∗ (∃ d, owns (c : Thread nD τ) (ms1_7 t) fullShare ((dat1 V c).before 7 t d)))
    ⊢ wp frame (wpE (defs₀ (F := F)) Variants.none c none) Set.univ (bodyAt1 t) (fun _ =>
      iprop(((owns (c : Thread nD τ) scM1_0 fullShare (acc1 V c t.val t.isLt) ∗ Rest1 c) ∗ (∃ r, prngReg c r)) ∗ (dat1 V c).owesAt () t.castSucc
        ∗ owns (c : Thread nD τ) (ms1_0 t) fullShare (iblk1 V c 0 t)
        ∗ owns (c : Thread nD τ) (ms1_1 t) fullShare (iblk1 V c 1 t)
        ∗ owns (c : Thread nD τ) (ms1_2 t) fullShare (iblk1 V c 2 t)
        ∗ owns (c : Thread nD τ) (ms1_3 t) fullShare (iblk1 V c 3 t)
        ∗ owns (c : Thread nD τ) (ms1_4 t) fullShare (iblk1 V c 4 t)
        ∗ owns (c : Thread nD τ) (ms1_5 t) fullShare (iblk1 V c 5 t)
        ∗ owns (c : Thread nD τ) (ms1_6 t) fullShare (iblk1 V c 6 t)
        ∗ (dat1 V c).leavesExact 7 t)) := by
  unfold bodyAt1
  obtain ⟨b0, b1, b2, b3, b4, b5, b6⟩ := before1 V c t
  simp only [b0, b1, b2, b3, b4, b5, b6]
  by_cases h0 : t.val % 16 = 0
  · have h1 : ¬t.val % 16 = 15 := by omega
    obtain ⟨hi, hf⟩ := idle1_7 t h1
    rw [Dat.leavesExact_idle (dat1 V c) 7 t hi hf, acc1_eq V c t, if_pos h0]
    refine (sep_mono (Phi_out1 V c _ _) .rfl).trans ?_
    rw [PhiA1_eq]
    iintro ⟨⟨⟨HS0, R⟩, Hg⟩, Ho, ⟨%d0, H0⟩, ⟨%d1, H1⟩, ⟨%d2, H2⟩, ⟨%d3, H3⟩, ⟨%d4, H4⟩, ⟨%d5, H5⟩, ⟨%d6, H6⟩, H7⟩
    iapply runA c (grid1.coords t) _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) ((hcond1_0 t).mpr h0) (fun h => h1 ((hcond1_1 t).mp h)) Set.univ _
    unfold ins
    iframe H0 H1 H2 H3 H4 H5 H6 HS0
    iintro ⟨⟨H0, H1, H2, H3, H4, H5, H6⟩, HS0⟩
    iframe
  · have hz : t.val ≠ 0 := fun e => h0 (by rw [e])
    by_cases h1 : t.val % 16 = 15
    · rw [show (dat1 V c).leavesExact 7 t = owns (c : Thread nD τ) (ms1_7 t) fullShare (k1_pay3 (iblk1 V c 4 t) (iblk1 V c 6 t) (iblk1 V c 2 t) (acc1 V c t.val t.isLt)) from by
        unfold Dat.leavesExact; rw [live1_7 t h1]; rfl, acc1_eq V c t, if_neg h0, PhiS1_pos V c _ _ hz]
      iintro ⟨⟨⟨HS0, R⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply runC c (grid1.coords t) _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (fun h => h0 ((hcond1_0 t).mp h)) ((hcond1_1 t).mpr h1) _ Set.univ _
      unfold ins
      iframe H0 H1 H2 H3 H4 H5 H6 HS0
      isplitl [H7]; · iexists _; iexact H7
      iintro ⟨⟨H0, H1, H2, H3, H4, H5, H6⟩, H7, HS0⟩
      iframe
    · obtain ⟨hi, hf⟩ := idle1_7 t h1
      rw [Dat.leavesExact_idle (dat1 V c) 7 t hi hf, acc1_eq V c t, if_neg h0, PhiS1_pos V c _ _ hz]
      iintro ⟨⟨⟨HS0, R⟩, Hg⟩, Ho, ⟨%d0, H0⟩, ⟨%d1, H1⟩, ⟨%d2, H2⟩, ⟨%d3, H3⟩, ⟨%d4, H4⟩, ⟨%d5, H5⟩, ⟨%d6, H6⟩, H7⟩
      iapply runB c (grid1.coords t) _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (fun h => h0 ((hcond1_0 t).mp h)) (fun h => h1 ((hcond1_1 t).mp h)) _ Set.univ _
      unfold ins
      iframe H0 H1 H2 H3 H4 H5 H6 HS0
      iintro ⟨⟨H0, H1, H2, H3, H4, H5, H6⟩, HS0⟩
      iframe

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := Idealize.SL.BI.Entails.refl _

theorem hout1 (c : Dev nD) : (dat1 V c).Φ (Fin.last cfg1.N) ⊢ Pipeline.ΦA spec1 c := Phi_out1 V c cfg1.N (Nat.le_refl _)

end Cert.KernelIdeal.R1

end
-- ==== Proof.KAll.lean ====
import proofs.«146407_j60627758350707_1_alg».proof.Proof.KLaunch
import proofs.«146407_j60627758350707_1_alg».proof.Proof.K0Frame
import proofs.«146407_j60627758350707_1_alg».proof.Proof.K1Frame

noncomputable section

namespace Cert.KernelIdeal.All

open Cert.KernelIdeal Cert.KernelIdeal.Gen
open Idealize.ShloMosaic Idealize.ShloMosaic.TcCoe
open Idealize.SL Idealize.SL.RA Idealize.SL.Sem

variable {F : FTy → Type} [FloatOps F]

/-- The two regions' own proof data meet what the launch asks of them. -/
theorem data0 : Launch.Data (F := F) R0.dat0 fun _ => fullShare :=
  ⟨R0.A_eq0, fun _ _ => rfl, fun _ _ _ => rfl, fun _ _ => rfl, R0.body_obligation0, R0.hin0, R0.hout0⟩

theorem data1 : Launch.Data (F := F) R1.dat1 Shares.q1 :=
  ⟨R1.A_eq1, fun _ _ => funext fun w => by fin_cases w <;> rfl, fun _ _ _ => rfl, fun _ _ => rfl, R1.body_obligation1, R1.hin1, R1.hout1⟩

variable (m : (ℓ : Loc nD τ sig) → Buf (Elt F) ℓ) (ρ : Dev nD → PrngReg)

/-- What the two regions leave in the buffers they may change. -/
abbrev outs : Gen.Outs (F := F) := Launch.outs R0.dat0 R1.dat1 m

theorem outs_v0_0 (c : Dev nD) : outs m 1 main_v0_0 c = (R0.dat0 (fun c b => Gen.V0 m c b) c).arrAt 1 cfg0.N :=
  Launch.outs_v0_0 R0.dat0 R1.dat1 m c

theorem outs_v0_1 (c : Dev nD) : outs m 1 main_v0_1 c = (R0.dat0 (fun c b => Gen.V0 m c b) c).arrAt 2 cfg0.N :=
  Launch.outs_v0_1 R0.dat0 R1.dat1 m c

theorem outs_v10 (c : Dev nD) : outs m 6 main_v10 c = (R1.dat1 (fun c b => Gen.V5 m (outs m) c b) c).arrAt 7 cfg1.N :=
  Launch.outs_v10 R0.dat0 R1.dat1 m c

/-- THE VALUE: the result buffer ends at what the last valuation says of it, and both argument arrays end as launched. -/
theorem value : θ_run defs (onTc (τ := τ) (main (F := F))) ⟨m, fun _ => 0, ρ⟩ (fun r => ∀ c : Dev nD,
      r.2.mem ((c.tc : Thread nD τ).loc main_v11) = Gen.V7 m (outs m) c main_v11
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  have mem_uc (b : Ref sig .tc) (h : ¬ (Proc.devRef .tc b : DevRef τ sig).isScoped) : Proc.devRef .tc b ∈ Pipeline.ucRefs τ sig :=
    Finset.mem_filter.mpr ⟨StableHlo.devRef_mem_tcRefs b, h⟩
  (θ_run defs _ _).mono (fun _ h c =>
    ⟨h c (Proc.devRef .tc main_v11) (mem_uc main_v11 (by decide)),
      (h c (Proc.devRef .tc main_arg0) (mem_uc main_arg0 (by decide))).trans (Gen.V7_main_arg0 m (outs m) c),
      (h c (Proc.devRef .tc main_arg1) (mem_uc main_arg1 (by decide))).trans (Gen.V7_main_arg1 m (outs m) c)⟩)
    (Launch.run_all_of m data0 data1 ρ)

/-- THE FRAME. Both argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (value m ρ)

end Cert.KernelIdeal.All

end
-- ==== Proof.BitsKShares.lean ====
import proofs.«146407_j60627758350707_1_alg».proof.Proof.Gen.Kernel.Launch
import proofs.«146407_j60627758350707_1_alg».proof.Proof.LibSharedLaunch

noncomputable section

namespace Cert.Kernel.Shares

open Cert.Kernel Cert.Kernel.Gen
open Idealize.SL
open Idealize.SL.BI (sProp)
open scoped Idealize.SL.BI
open Idealize.SL.RA
open Idealize.ShloMosaic Idealize.ShloMosaic.Pipeline Idealize.ShloMosaic.Rounds
open TcCoe
open Cert.LibSharedLaunch

variable {F : FTy → Type} [FloatOps F]

local notation "𝕄" => MT nD τ sig Unit (Elt F) ℕ (UR sig nD τ) ℕ

/-- Region 1's shares: windows 0 and 1, 2 and 3, 4 and 5 pair up on one buffer, each pair holding the two halves of the full share. -/
def q1 : Fin cfg1.W → PosShare TreeShare := fun
  | ⟨0, _⟩ => fullShare.left | ⟨1, _⟩ => fullShare.right | ⟨2, _⟩ => fullShare.left | ⟨3, _⟩ => fullShare.right
  | ⟨4, _⟩ => fullShare.left | ⟨5, _⟩ => fullShare.right | ⟨6, _⟩ => fullShare | ⟨7, _⟩ => fullShare

/-- At those shares the eight arrays, at the contents of the buffers behind them, are the five buffers whole: the halves join. -/
theorem arrays_eq_arrBufs1 {c : Dev nD} (dat : Dat τ (Elt F) Unit ℕ (UR sig nD τ) ℕ cfg1 c) (hq : dat.q = q1)
    (V : (b : Ref sig .tc) → Buf (Elt F) ((c.tc : Thread nD τ).loc b))
    (Fw : (w : Fin cfg1.W) → Buf (Elt F) ((cfg1.spec w).arr.view.loc (c.tc : Thread nD τ)))
    (hF : ∀ w, Fw w = V (arrRef spec1 w)) :
    dat.arrays Fw = (arrBufs (Ix := Unit) (Name := ℕ) (U := UR sig nD τ) (Lvl := ℕ) spec1 c V : sProp 𝕄) := by
  have hs : dat.share = q1 := funext fun w => by
    unfold Dat.share; rw [hq]
    exact ite_eq_right_iff.2 fun h => by
      obtain rfl := (by decide : ∀ w : Fin 8, (cfg1.win w).isOut = true → w = 7) w h; rfl
  rw [arrays_eq dat V Fw arr_whole1 hF, hs, bigSep_W1,
    arrBufs_eq_of_list spec1 c V [main_arg0, main_arg1, main_v9, main_v3, main_v10] (by decide) (by decide)]
  exact halves_sep _ (halves_sep _ (halves_sep _ rfl))

end Cert.Kernel.Shares

end
-- ==== Proof.BitsKLaunch.lean ====
import proofs.«146407_j60627758350707_1_alg».proof.Proof.Gen.Kernel.Regions
import proofs.«146407_j60627758350707_1_alg».proof.Proof.BitsKShares

noncomputable section

namespace Cert.Kernel.Launch

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.LibSharedLaunch (rest region unscopedBufs_eq)

variable {F : FTy → Type} [FloatOps F]

local notation "𝕄" => MT nD τ sig Unit (Elt F) ℕ (UR sig nD τ) ℕ

/-- The contents of a core's buffers, reference by reference: what a region's proof data are stated at. -/
abbrev TcVal (F : FTy → Type) : Type := (c : Dev nD) → (b : Ref sig .tc) → Buf (Elt F) ((c : Thread nD τ).loc b)

variable (dat0 : TcVal F → (c : Dev nD) → Dat τ (Elt F) Unit ℕ (UR sig nD τ) ℕ cfg0 c)
variable (dat1 : TcVal F → (c : Dev nD) → Dat τ (Elt F) Unit ℕ (UR sig nD τ) ℕ cfg1 c)
variable (m : (ℓ : Loc nD τ sig) → Buf (Elt F) ℓ)

abbrev VA : TcVal F := fun c b => Gen.V0 m c b

/-- What region 0 leaves in its two output arrays; every other reference as launched. -/
def outsA : Gen.Outs (F := F) := fun _ r c =>
  if h : r = main_v0_0 then h ▸ (dat0 (VA m) c).arrAt 1 cfg0.N
  else if h : r = main_v0_1 then h ▸ (dat0 (VA m) c).arrAt 2 cfg0.N
  else m (c, r)

/-- Region 1's entry contents: they depend on region 0's outputs only. -/
abbrev VB : TcVal F := fun c b => Gen.V5 m (outsA dat0 m) c b

/-- What the regions leave: region 0's outputs, and region 1's output array. -/
def outs : Gen.Outs (F := F) := fun J r c =>
  if h : r = main_v10 then h ▸ (dat1 (VB dat0 m) c).arrAt 7 cfg1.N
  else outsA dat0 m J r c

theorem outs_v0_0 (c : Dev nD) : outs dat0 dat1 m 1 main_v0_0 c = (dat0 (fun c b => Gen.V0 m c b) c).arrAt 1 cfg0.N := by
  unfold outs outsA
  rw [dif_neg (by decide), dif_pos rfl]

theorem outs_v0_1 (c : Dev nD) : outs dat0 dat1 m 1 main_v0_1 c = (dat0 (fun c b => Gen.V0 m c b) c).arrAt 2 cfg0.N := by
  unfold outs outsA
  rw [dif_neg (by decide), dif_neg (by decide), dif_pos rfl]

/-- Region 1's output is not read before region 1. -/
theorem V5_outs (c : Dev nD) : Gen.V5 m (outs dat0 dat1 m) c = Gen.V5 m (outsA dat0 m) c := by
  have h : ∀ r, r ≠ main_v10 → outs dat0 dat1 m 1 r c = outsA dat0 m 1 r c := fun r hr => dif_neg hr
  show StableHlo.after _ (StableHlo.after _ (StableHlo.after _ (StableHlo.after _ (Function.update (Function.update _ _ _) _ _)))) = _
  rw [h _ (by decide), h _ (by decide)]

theorem outs_v10' (c : Dev nD) : outs dat0 dat1 m 6 main_v10 c = (dat1 (VB dat0 m) c).arrAt 7 cfg1.N := dif_pos rfl

theorem outs_v10 (c : Dev nD) : outs dat0 dat1 m 6 main_v10 c = (dat1 (fun c b => Gen.V5 m (outs dat0 dat1 m) c b) c).arrAt 7 cfg1.N := by
  rw [show (fun c b => Gen.V5 m (outs dat0 dat1 m) c b : TcVal F) = VB dat0 m by funext c b; rw [V5_outs]]
  exact outs_v10' dat0 dat1 m c

/-- What the launch takes of a region's proof data at every entry contents `V`; `q` are the shares its inputs are held at. -/
structure Data {cfg : Pipeline.Cfg sig Λ₀} (dat : TcVal F → (c : Dev nD) → Dat τ (Elt F) Unit ℕ (UR sig nD τ) ℕ cfg c)
    (q : Fin cfg.W → PosShare TreeShare) : Prop where
  hA : ∀ V c w, (dat V c).A w = V c (Pipeline.arrRef cfg.spec w)
  hq : ∀ V c, (dat V c).q = q
  howed : ∀ V c t, (dat V c).owed t = 0
  hrec : ∀ V c, (dat V c).recorded 0 = Set.univ
  hbody : ∀ V c, Pipeline.BodyObligation (dat V c) (defs₀ (F := F)) Variants.none () Set.univ
  hin : ∀ V c, Pipeline.ΦA cfg.spec c ⊢ (dat V c).Φ 0
  hout : ∀ V c, (dat V c).Φ (Fin.last cfg.N) ⊢ Pipeline.ΦA cfg.spec c

/-- Every pipeline's proof data, each at its region's entry contents. -/
def pdats : (p : Fin 2) → (c : Dev nD) → Dat τ (Elt F) Unit ℕ (UR sig nD τ) ℕ (cfgs p) c
  | ⟨0, _⟩ => dat0 (VA m)
  | ⟨1, _⟩ => dat1 (VB dat0 m)

abbrev 𝒱₀ : Variants := Variants.none
abbrev L : GSem nD τ sig → Finset Unit := fun _ => ∅
abbrev lv : GSem nD τ sig → Unit → ℕ := fun _ _ => 0
abbrev E : Fin 3 → Dev nD → sProp 𝕄 := fun _ c => rest c

variable {dat0 dat1}

theorem V1_v0_0 (o : Gen.Outs (F := F)) (c : Dev nD) : Gen.V1 m o c main_v0_0 = o 1 main_v0_0 c := by
  simp only [Gen.V1, Function.update_of_ne (StableHlo.devRef_ne_of_ne (show main_v0_0 ≠ main_v0_1 by decide) :
    (Proc.devRef .tc main_v0_0 : DevRef τ sig) ≠ Proc.devRef .tc main_v0_1), Function.update_self]
theorem V1_v0_1 (o : Gen.Outs (F := F)) (c : Dev nD) : Gen.V1 m o c main_v0_1 = o 1 main_v0_1 c := Function.update_self ..
theorem V6_v10 (o : Gen.Outs (F := F)) (c : Dev nD) : Gen.V6 m o c main_v10 = o 6 main_v10 c := Function.update_self ..

/-- At region 0's exit each of its arrays holds what the valuation after it says. -/
theorem hF0 (h0 : Data dat0 fun _ => fullShare) (c : Dev nD) (w : Fin cfg0.W) :
    (dat0 (VA m) c).arrAt w cfg0.N = Gen.V1 m (outs dat0 dat1 m) c (Pipeline.arrRef spec0 w) := by
  match w with
  | 0 => rw [(dat0 (VA m) c).arrAt_in 0 rfl, h0.hA]; exact (Gen.V1_of m _ c main_arg0 (by decide)).symm
  | 1 => rw [← outs_v0_0 dat0 dat1 m c]; exact (V1_v0_0 m _ c).symm
  | 2 => rw [← outs_v0_1 dat0 dat1 m c]; exact (V1_v0_1 m _ c).symm
  | ⟨_ + 3, h⟩ => exact absurd h (Nat.not_lt.2 (Nat.le_add_left _ _))

/-- Off region 0's arrays the valuation after it is the launch's. -/
theorem hrest0 (c : Dev nD) (b : Ref sig .tc) (hb : b ∉ Finset.univ.image (Pipeline.arrRef spec0)) :
    Gen.V1 m (outs dat0 dat1 m) c b = VA m c b :=
  Gen.V1_of m _ c b (by
    simp only [List.mem_cons, List.not_mem_nil, or_false, not_or]
    exact ⟨fun e => hb (Finset.mem_image.mpr ⟨1, Finset.mem_univ _, e.symm⟩),
      fun e => hb (Finset.mem_image.mpr ⟨2, Finset.mem_univ _, e.symm⟩)⟩)

set_option backward.isDefEq.respectTransparency.types false in
/-- REGION 0, entered at the launch contents and left at `Gen.V1`: its three windows have three distinct arrays. -/
def reg0 (h0 : Data dat0 fun _ => fullShare) : RegionSeg (pcfgs (F := F)) adm (pdats dat0 dat1 m) () defs₀ 𝒱₀ L lv 0 :=
  have hs c := (pdats dat0 dat1 m 0 c).share_full (congrFun (h0.hq (VA m) c))
  region cfgs (pdats dat0 dat1 m) defs₀ 𝒱₀ L lv 0 (Gen.V0 m) (Gen.V1 m (outs dat0 dat1 m)) winFacts0.to₀ block_pos0 stage_whole0
    (h0.hbody _) (h0.howed _) (h0.hrec _) (h0.hin _) (h0.hout _)
    (fun c => Pipeline.arrays_of_unscopedBufs (p := 0) (pcfgs (F := F)) adm (pdats dat0 dat1 m) winFacts0 arr_whole0 c (hs c) (VA m c) (h0.hA _ c))
    (fun c => Pipeline.unscopedBufs_of_arrays (p := 0) (pcfgs (F := F)) adm winFacts0 arr_whole0 c (pdats dat0 dat1 m) (hs c)
      (VA m c) (fun b => Gen.V1 m (outs dat0 dat1 m) c b) _ (hF0 m h0 c) (hrest0 m c))

/-- Off region 1's output the valuation after it is the entry contents. -/
theorem V6_VB (c : Dev nD) (b : Ref sig .tc) (hb : b ∉ ([main_v10] : List (Ref sig .tc))) :
    Gen.V6 m (outs dat0 dat1 m) c b = VB dat0 m c b := by
  rw [Gen.V6_of m _ c b hb, V5_outs]

/-- At region 1's exit each of its arrays holds what the valuation after it says: an input's array its entry contents. -/
theorem hF1 (h1 : Data dat1 Shares.q1) (c : Dev nD) (w : Fin cfg1.W) :
    (dat1 (VB dat0 m) c).arrAt w cfg1.N = Gen.V6 m (outs dat0 dat1 m) c (Pipeline.arrRef spec1 w) := by
  rcases Bool.eq_false_or_eq_true (cfg1.win w).isOut with hw | hw
  · obtain rfl := (by decide : ∀ w : Fin 8, (cfg1.win w).isOut = true → w = 7) w hw
    rw [← outs_v10' dat0 dat1 m c]; exact (V6_v10 m _ c).symm
  · rw [(dat1 (VB dat0 m) c).arrAt_in w hw, h1.hA]
    exact (V6_VB m c _ ((by decide : ∀ w : Fin 8, (cfg1.win w).isOut = false → Pipeline.arrRef spec1 w ∉ [main_v10]) w hw)).symm

theorem hrest1 (c : Dev nD) (b : Ref sig .tc) (hb : b ∉ Finset.univ.image (Pipeline.arrRef spec1)) :
    Gen.V6 m (outs dat0 dat1 m) c b = Gen.V5 m (outs dat0 dat1 m) c b :=
  Gen.V6_of m _ c b (by
    simp only [List.mem_cons, List.not_mem_nil, or_false]
    exact fun e => hb (Finset.mem_image.mpr ⟨7, Finset.mem_univ _, e.symm⟩))

set_option backward.isDefEq.respectTransparency.types false in
/-- REGION 1, entered at `Gen.V5` and left at `Gen.V6`: its eight windows share five buffers, dealt by halves and joined again. -/
def reg1 (h1 : Data dat1 Shares.q1) : RegionSeg (pcfgs (F := F)) adm (pdats dat0 dat1 m) () defs₀ 𝒱₀ L lv 1 :=
  have ha c := Shares.arrays_eq_arrBufs1 (dat1 (VB dat0 m) c) (h1.hq _ c)
  region cfgs (pdats dat0 dat1 m) defs₀ 𝒱₀ L lv 1 (Gen.V5 m (outs dat0 dat1 m)) (Gen.V6 m (outs dat0 dat1 m)) winFacts₀1 block_pos1 stage_whole1
    (h1.hbody _) (h1.howed _) (h1.hrec _) (h1.hin _) (h1.hout _)
    (fun c => Entails.of_eq (unscopedBufs_eq (dat1 (VB dat0 m) c) _ _ _ winFacts₀1.arr_unscoped
      (ha c _ _ fun w => (h1.hA _ c w).trans (congrFun (V5_outs dat0 dat1 m c).symm _)) fun _ _ => rfl).symm)
    (fun c => Entails.of_eq (unscopedBufs_eq (dat1 (VB dat0 m) c) _ _ _ winFacts₀1.arr_unscoped
      (ha c _ _ (hF1 m h1 c)) (hrest1 m c)))

set_option backward.isDefEq.respectTransparency.types false in
/-- THE RUN: @main from memory `m` with zero counters terminates, every unscoped buffer ending at the last valuation `Gen.V7`. -/
theorem run_all_of (h0 : Data dat0 fun _ => fullShare) (h1 : Data dat1 Shares.q1) (ρ : Dev nD → PrngReg) :
    θ_run defs (onTc (τ := τ) (main (F := F))) ⟨m, fun _ => 0, ρ⟩ (fun r => ∀ c : Dev nD, ∀ b ∈ Pipeline.ucRefs τ sig,
      r.2.mem (((c : Thread nD τ)).1, b) = Gen.V7 m (outs dat0 dat1 m) c b) := by
  refine Pipeline.θ_run_regions_kit_dev (pcfgs (F := F)) adm (pdats dat0 dat1 m) () cellOf_inj emb₁ defs₀ 𝒱₀ L lv m ρ main
    (Gen.segs m (outs dat0 dat1 m) 𝒱₀ L lv E () (pdats dat0 dat1 m) (reg0 m h0) (reg1 m h1))
    (fun c Q => by rw [main_chain c, Seg.run_eq_chain]; exact .rfl)
    (fun c => by simp only [Gen.segs, Seg.pipes_host, Seg.pipes_region, Seg.pipes_nil]; decide)
    (O₀ := 0) (hL := fun _ _ => rfl) (G := fun _ => (BI.emp : sProp 𝕄))
    (u₀ := initOf (Pipeline.cells cfgs cellOf_inj) (Pipeline.launchToks cfgs cellOf_inj))
    (hu₀ := by
      rw [BI.bigSep_emp_const]
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iempintro)
    (T₀ := fun c => iprop(StableHlo.held (c : Thread nD τ) (Pipeline.ucRefs τ sig) (Gen.V0 m c) ∗ rest c))
    (Tₙ := fun c => StableHlo.held (c : Thread nD τ) (Pipeline.ucRefs τ sig) (Gen.V7 m (outs dat0 dat1 m) c))
    (hch := fun c => ⟨.rfl, .rfl, .rfl, .rfl, .rfl, .rfl, .rfl, sep_mono .rfl (by iintro ⟨-, HO⟩; iexact HO)⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.V7 m (outs dat0 dat1 m) c b)
    (hfin := fun c s' => by
      iintro ⟨Hh, HSI⟩
      unfold StableHlo.held
      imodintro
      iapply (pointsTo_read_all (Pipeline.ucRefs τ sig) (fun b => (((c : Thread nD τ)).1, b)) (Gen.V7 m (outs dat0 dat1 m) c) s')
      isplitl [Hh] <;> iassumption)
    (hQ := fun s h c => h c)

end Cert.Kernel.Launch

end
-- ==== Proof.BitsK0Body.lean ====
import proofs.«146407_j60627758350707_1_alg».proof.Proof.Gen.Kernel.Launch
import proofs.«146407_j60627758350707_1_alg».proof.Proof.Gen.Kernel.Skeleton
import proofs.«146407_j60627758350707_1_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev cond0_0 (i : grid0.Coords) : Prop := (Scalar.cmpi .ne (Scalar.extui (Scalar.cmpi .eq (BitVec.ofNat 32 (i 0).val) 0#32)) 0#32) = 1#1

/-- The reset is taken at the first point only, -/
theorem hcond0_0 : ∀ t : Fin cfg0.N, cond0_0 (grid0.coords t) ↔ t.val % 32 = 0 :=
  (by decide +kernel : ∀ t : Fin grid0.N, cond0_0 (grid0.coords t) ↔ t.val % 32 = 0)

abbrev cond0_1 (i : grid0.Coords) : Prop := k0_cond2 i = 1#1

/-- the final copy at the last point only. -/
theorem hcond0_1 : ∀ t : Fin cfg0.N, cond0_1 (grid0.coords t) ↔ t.val % 32 = 31 :=
  (by decide +kernel : ∀ t : Fin grid0.N, cond0_1 (grid0.coords t) ↔ t.val % 32 = 31)

theorem liveAt0_0 : ∀ t : Fin cfg0.N, cfg0.idle 0 (grid0.coords t) = false := by decide +kernel

theorem liveAt0_1 : ∀ t : Fin cfg0.N, cfg0.idle 1 (grid0.coords t) = false := by decide +kernel

theorem idleAt0_2 : ∀ t : Fin cfg0.N, ¬cond0_1 (grid0.coords t) → cfg0.idle 2 (grid0.coords t) = true := by decide +kernel

theorem noFlush0_2 : ∀ t : Fin cfg0.N, ¬cond0_1 (grid0.coords t) → (cfg0.win 2).flush t = false := by decide +kernel

theorem liveAt0_2 : ∀ t : Fin cfg0.N, cond0_1 (grid0.coords t) → cfg0.idle 2 (grid0.coords t) = false := by decide +kernel

abbrev ms0_0 (t : Fin cfg0.N) : Memref sig .tc .vmem S256x8192 .f32 := win0_0.stage (cfg0.slots t 0)
abbrev ms0_1 (t : Fin cfg0.N) : Memref sig .tc .vmem S256 .f32 := win0_1.stage (cfg0.slots t 1)
abbrev ms0_2 (t : Fin cfg0.N) : Memref sig .tc .vmem S8192 .f32 := win0_2.stage (cfg0.slots t 2)

abbrev scM0_0 : Memref sig .tc .vmem S8192 .f32 := Memref.whole cc0_scratch0

/-- Every scoped buffer but the accumulator, unopened: the region never touches them. -/
def Rest0 (c : Dev nD) : sProp 𝕄 :=
  Pipeline.scopedRestBut (Ix := Unit) (Name := ℕ) (U := UR sig nD τ) (Lvl := ℕ) (Val := Elt F) spec0 c [cc0_scratch0]

theorem PhiA0_eq (c : Dev nD) :
    (Pipeline.ΦA spec0 c : sProp 𝕄)
      = iprop(iprop((∃ d, owns (c : Thread nD τ) scM0_0 fullShare d) ∗ Rest0 (F := F) c) ∗ (∃ r, prngReg c r)) := by
  unfold Pipeline.ΦA Rest0; rw [Pipeline.scopedRest_split_of_list spec0 c [cc0_scratch0] (by decide) (by decide)]
  simp only [scM0_0, owns_whole]; try rfl

theorem hz1 : (![0] : Fin 1 → Nat) = fun _ => 0 := by decide
theorem hz2 : (![0, 0] : Fin 2 → Nat) = fun _ => 0 := by decide

variable (c : Dev nD) (i : grid0.Coords) (arg1 : Memref sig .tc .vmem S256x8192 .f32) (harg1 : arg1.IsWhole) (arg2 : Memref sig .tc .vmem S256 .f32) (harg2 : arg2.IsWhole) (arg3 : Memref sig .tc .vmem S8192 .f32) (harg3 : arg3.IsWhole) (arg4 : Memref sig .tc .vmem S8192 .f32) (harg4 : arg4.IsWhole) (x0 : Vec F S256x8192 .f32)

/-- First point: the strip's row sums are stored, and the accumulator, reset to zeros, ends at the strip's column sums. -/
theorem run0_A (hc0 : cond0_0 i) (hc1 : ¬cond0_1 i) (E : Set ℕ) (K : PUnit → sProp 𝕄) :
    iprop(owns (c : Thread nD τ) arg1 fullShare x0 ∗ (∃ d, owns (c : Thread nD τ) arg2 fullShare d) ∗ (∃ d, owns (c : Thread nD τ) arg4 fullShare d)
        ∗ (iprop(owns (c : Thread nD τ) arg1 fullShare x0 ∗ owns (c : Thread nD τ) arg2 fullShare (k0_pay2 x0) ∗ owns (c : Thread nD τ) arg4 fullShare (k0_pay3 x0 (k0_pay1 (F := F)))) -∗ K ⟨⟩))
      ⊢ wp frame (wpE (defs₀ (F := F)) Variants.none c none) E (cc0__sums_kernel i arg1 harg1 arg2 harg2 arg3 harg3 arg4 harg4) K := by
  simp only [cc0__sums_kernel_eq_skeleton]; unfold cc0__sums_kernel_skel
  unfold owns
  iintro ⟨⟨%f0, %hf0, H0⟩, ⟨%d1, %f1, -, H1⟩, ⟨%ds0, %fs0, -, HS0⟩, Hk⟩
  obtain rfl := harg1.eq_unread hf0
  sl_exec (disch := first | exact hc0 | exact hc1)
  sl_step
  iapply Hk
  isplitl [H0]
  · iexists _; isplitr; · ipureintro; exact harg1.read_unread _
    iexact H0
  isplitl [H1]
  · iexists _; isplitr; swap; · iexact H1
    ipureintro
    refine (View.read_writes_eq_canon _ _ _ (View.cover_of_tiledL _ S256.size (by sl_kernel_rfl))).trans ?_
    sl_unfold_words
    rw [View.canon_unit_zero (S := S256) hz1]; simp only [View.readAt_eq_ld, harg1.read_unread, harg4.read_unread, View.ld_unit_zero (S := S256x8192) hz2, View.ld_unit_zero (S := S8192) hz1, View.readCov_unit_zero (S := S8192) _ hz1]
  iexists _; isplitr; swap; · iexact HS0
  ipureintro
  refine (View.read_writes_eq_canon _ _ _ (View.cover_of_tiledL _ S8192.size (by sl_kernel_rfl))).trans ?_
  sl_unfold_words
  rw [View.canon_cons_unit_zero (S := S8192) hz1]; simp only [View.readAt_eq_ld, harg1.read_unread, harg4.read_unread, View.ld_unit_zero (S := S256x8192) hz2, View.ld_unit_zero (S := S8192) hz1, View.readCov_unit_zero (S := S8192) _ hz1]

/-- A middle point: the strip's column sums are added to what the accumulator held. -/
theorem run0_B (hc0 : ¬cond0_0 i) (hc1 : ¬cond0_1 i) (xs0 : Vec F S8192 .f32) (E : Set ℕ) (K : PUnit → sProp 𝕄) :
    iprop(owns (c : Thread nD τ) arg1 fullShare x0 ∗ (∃ d, owns (c : Thread nD τ) arg2 fullShare d) ∗ owns (c : Thread nD τ) arg4 fullShare xs0
        ∗ (iprop(owns (c : Thread nD τ) arg1 fullShare x0 ∗ owns (c : Thread nD τ) arg2 fullShare (k0_pay2 x0) ∗ owns (c : Thread nD τ) arg4 fullShare (k0_pay3 x0 xs0)) -∗ K ⟨⟩))
      ⊢ wp frame (wpE (defs₀ (F := F)) Variants.none c none) E (cc0__sums_kernel i arg1 harg1 arg2 harg2 arg3 harg3 arg4 harg4) K := by
  simp only [cc0__sums_kernel_eq_skeleton]; unfold cc0__sums_kernel_skel
  unfold owns
  iintro ⟨⟨%f0, %hf0, H0⟩, ⟨%d1, %f1, -, H1⟩, ⟨%fs0, %hfs0, HS0⟩, Hk⟩
  obtain rfl := harg1.eq_unread hf0; obtain rfl := harg4.eq_unread hfs0
  sl_exec (disch := first | exact hc0 | exact hc1)
  sl_step
  iapply Hk
  isplitl [H0]
  · iexists _; isplitr; · ipureintro; exact harg1.read_unread _
    iexact H0
  isplitl [H1]
  · iexists _; isplitr; swap; · iexact H1
    ipureintro
    refine (View.read_writes_eq_canon _ _ _ (View.cover_of_tiledL _ S256.size (by sl_kernel_rfl))).trans ?_
    sl_unfold_words
    rw [View.canon_unit_zero (S := S256) hz1]; simp only [View.readAt_eq_ld, harg1.read_unread, harg4.read_unread, View.ld_unit_zero (S := S256x8192) hz2, View.ld_unit_zero (S := S8192) hz1, View.readCov_unit_zero (S := S8192) _ hz1]
  iexists _; isplitr; swap; · iexact HS0
  ipureintro
  refine (View.read_writes_eq_canon _ _ _ (View.cover_of_tiledL _ S8192.size (by sl_kernel_rfl))).trans ?_
  sl_unfold_words
  rw [View.canon_unit_zero (S := S8192) hz1]; simp only [View.readAt_eq_ld, harg1.read_unread, harg4.read_unread, View.ld_unit_zero (S := S256x8192) hz2, View.ld_unit_zero (S := S8192) hz1, View.readCov_unit_zero (S := S8192) _ hz1]

/-- Last point: as a middle point, and the finished accumulator is copied into the column sums' block. -/
theorem run0_C (hc0 : ¬cond0_0 i) (hc1 : cond0_1 i) (xs0 : Vec F S8192 .f32) (E : Set ℕ) (K : PUnit → sProp 𝕄) :
    iprop(owns (c : Thread nD τ) arg1 fullShare x0 ∗ (∃ d, owns (c : Thread nD τ) arg2 fullShare d) ∗ (∃ d, owns (c : Thread nD τ) arg3 fullShare d) ∗ owns (c : Thread nD τ) arg4 fullShare xs0
        ∗ (iprop(owns (c : Thread nD τ) arg1 fullShare x0 ∗ owns (c : Thread nD τ) arg2 fullShare (k0_pay2 x0) ∗ owns (c : Thread nD τ) arg3 fullShare (k0_pay3 x0 xs0) ∗ owns (c : Thread nD τ) arg4 fullShare (k0_pay3 x0 xs0)) -∗ K ⟨⟩))
      ⊢ wp frame (wpE (defs₀ (F := F)) Variants.none c none) E (cc0__sums_kernel i arg1 harg1 arg2 harg2 arg3 harg3 arg4 harg4) K := by
  simp only [cc0__sums_kernel_eq_skeleton]; unfold cc0__sums_kernel_skel
  unfold owns
  iintro ⟨⟨%f0, %hf0, H0⟩, ⟨%d1, %f1, -, H1⟩, ⟨%d2, %f2, -, H2⟩, ⟨%fs0, %hfs0, HS0⟩, Hk⟩
  obtain rfl := harg1.eq_unread hf0; obtain rfl := harg4.eq_unread hfs0
  sl_exec (disch := first | exact hc0 | exact hc1)
  sl_step
  iapply Hk
  isplitl [H0]
  · iexists _; isplitr; · ipureintro; exact harg1.read_unread _
    iexact H0
  isplitl [H1]
  · iexists _; isplitr; swap; · iexact H1
    ipureintro
    refine (View.read_writes_eq_canon _ _ _ (View.cover_of_tiledL _ S256.size (by sl_kernel_rfl))).trans ?_
    sl_unfold_words
    rw [View.canon_unit_zero (S := S256) hz1]; simp only [View.readAt_eq_ld, harg1.read_unread, harg4.read_unread, View.ld_unit_zero (S := S256x8192) hz2, View.ld_unit_zero (S := S8192) hz1, View.readCov_unit_zero (S := S8192) _ hz1]
  isplitl [H2]
  · iexists _; isplitr; swap; · iexact H2
    ipureintro
    refine (View.read_writes_eq_canon _ _ _ (View.cover_of_tiledL _ S8192.size (by sl_kernel_rfl))).trans ?_
    sl_unfold_words
    rw [View.canon_unit_zero (S := S8192) hz1]; simp only [View.readAt_eq_ld, harg1.read_unread, harg4.read_unread, View.ld_unit_zero (S := S256x8192) hz2, View.ld_unit_zero (S := S8192) hz1, View.readCov_unit_zero (S := S8192) _ hz1]
  iexists _; isplitr; swap; · iexact HS0
  ipureintro
  refine (View.read_writes_eq_canon _ _ _ (View.cover_of_tiledL _ S8192.size (by sl_kernel_rfl))).trans ?_
  sl_unfold_words
  rw [View.canon_unit_zero (S := S8192) hz1]; simp only [View.readAt_eq_ld, harg1.read_unread, harg4.read_unread, View.ld_unit_zero (S := S256x8192) hz2, View.ld_unit_zero (S := S8192) hz1, View.readCov_unit_zero (S := S8192) _ hz1]

end Cert.Kernel.R0

end
-- ==== Proof.BitsK0Frame.lean ====
import proofs.«146407_j60627758350707_1_alg».proof.Proof.BitsK0Body

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The accumulator after point `n`: the column sums of strips `0 … n`, folded from zeros. -/
def acc0 (c : Dev nD) : (n : ℕ) → n < cfg0.N → Vec F S8192 .f32
  | 0, hn => k0_pay3 (iblk0 V c 0 ⟨0, hn⟩) k0_pay1
  | n + 1, hn => k0_pay3 (iblk0 V c 0 ⟨n + 1, hn⟩) (acc0 c n (Nat.lt_of_succ_lt hn))

theorem acc0_zero (c : Dev nD) (t : Fin cfg0.N) (hz : t.val = 0) : acc0 V c t.val t.isLt = k0_pay3 (iblk0 V c 0 t) k0_pay1 := by
  obtain ⟨n, hn⟩ := t
  cases n with
  | zero => rfl
  | succ n => exact absurd hz (Nat.succ_ne_zero n)

theorem acc0_pos (c : Dev nD) (t : Fin cfg0.N) (hz : t.val ≠ 0) :
    acc0 V c t.val t.isLt = k0_pay3 (iblk0 V c 0 t) (acc0 V c (t.val - 1) (Nat.lt_of_le_of_lt (Nat.sub_le _ _) t.isLt)) := by
  obtain ⟨n, hn⟩ := t
  cases n with
  | zero => exact absurd rfl hz
  | succ n => rfl

/-- Between points the invariant holds the accumulator at `acc0`; before the first point, at anything. -/
def PhiS (c : Dev nD) : (n : ℕ) → n ≤ cfg0.N → sProp 𝕄
  | 0, _ => Pipeline.ΦA spec0 c
  | n + 1, hn => iprop(iprop(owns (c : Thread nD τ) scM0_0 fullShare (acc0 V c n hn) ∗ Rest0 (F := F) c) ∗ (∃ r, prngReg c r))

theorem PhiS_zero (c : Dev nD) (n : ℕ) (h : n ≤ cfg0.N) (hz : n = 0) : PhiS V c n h = Pipeline.ΦA spec0 c := by
  subst hz; rfl

theorem PhiS_pos (c : Dev nD) (n : ℕ) (h : n ≤ cfg0.N) (hz : n ≠ 0) :
    PhiS V c n h = iprop(iprop(owns (c : Thread nD τ) scM0_0 fullShare (acc0 V c (n - 1) (by omega)) ∗ Rest0 (F := F) c) ∗ (∃ r, prngReg c r)) := by
  cases n with
  | zero => exact absurd rfl hz
  | succ n => rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => k0_pay2 (iblk0 V c 0 t)
    | ⟨2, _⟩ => acc0 V c t.val t.isLt
  Φ t := PhiS V c t.val (Nat.le_of_lt_succ t.isLt)
  q _ := fullShare
  owed _ := 0

theorem A_eq0 (c : Dev nD) (w : Fin cfg0.W) : (dat0 V c).A w = V c (Pipeline.arrRef spec0 w) := rfl

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := rfl
theorem after0_1 (c : Dev nD) (t : Fin cfg0.N) : (dat0 V c).after 1 t = k0_pay2 (iblk0 V c 0 t) := rfl
theorem after0_2 (c : Dev nD) (t : Fin cfg0.N) : (dat0 V c).after 2 t = acc0 V c t.val t.isLt := rfl

theorem before0_0 (c : Dev nD) (t : Fin cfg0.N) (d) : (dat0 V c).before 0 t d = iblk0 V c 0 t :=
  ((dat0 V c).before_in_eq_fetched 0 rfl (fun _ => rfl) (fun _ _ _ => rfl) (fun _ => rfl) t d).trans rfl

def bodyPre (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

/-- At each point the run of its case applies, and what it leaves is `dat0`'s contents. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0]
  rw [show (dat0 V c).owesAt () t.succ = (dat0 V c).owesAt () t.castSucc from rfl]
  rw [show (dat0 V c).Φ t.succ = iprop(iprop(owns (c : Thread nD τ) scM0_0 fullShare (acc0 V c t.val t.isLt) ∗ Rest0 (F := F) c) ∗ (∃ r, prngReg c r)) from rfl]
  have hN : t.val < 32 := lt_of_lt_of_eq t.isLt (show cfg0.N = 32 from N_0)
  rw [show (dat0 V c).leavesExact 0 t = owns (c : Thread nD τ) (ms0_0 t) fullShare ((dat0 V c).after 0 t) from by
      unfold Dat.leavesExact; rw [liveAt0_0 t], after0_0]
  rw [show (dat0 V c).leavesExact 1 t = owns (c : Thread nD τ) (ms0_1 t) fullShare ((dat0 V c).after 1 t) from by
      unfold Dat.leavesExact; rw [liveAt0_1 t], after0_1]
  rw [PhiS_castSucc V c t]
  by_cases h0 : t.val % 32 = 0
  · have hz : t.val = 0 := by omega
    have h1 : ¬cond0_1 (grid0.coords t) := fun h => by have := (hcond0_1 t).mp h; omega
    rw [Dat.leavesExact_idle (dat0 V c) 2 t (idleAt0_2 t h1) (noFlush0_2 t h1), acc0_zero V c t hz, PhiS_zero V c _ _ hz, PhiA0_eq]
    iintro ⟨⟨⟨HS0, Hr⟩, Hg⟩, Ho, ⟨%d0, H0⟩, ⟨%d1, H1⟩, H2⟩
    iapply (run0_A c (grid0.coords t) _ _ _ _ _ _ _ _ (iblk0 V c 0 t) ((hcond0_0 t).mpr h0) h1 Set.univ _)
    isplitl [H0]; · iexact H0
    isplitl [H1]; · iexists _; iexact H1
    isplitl [HS0]; · iexact HS0
    iintro ⟨H0, H1, HS0⟩
    iframe
  · have hz : t.val ≠ 0 := by omega
    have hc0 : ¬cond0_0 (grid0.coords t) := fun h => h0 ((hcond0_0 t).mp h)
    rw [acc0_pos V c t hz, PhiS_pos V c _ _ hz]
    by_cases h1 : t.val % 32 = 31
    · rw [show (dat0 V c).leavesExact 2 t = owns (c : Thread nD τ) (ms0_2 t) fullShare ((dat0 V c).after 2 t) from by
        unfold Dat.leavesExact; rw [liveAt0_2 t ((hcond0_1 t).mpr h1)], after0_2, acc0_pos V c t hz]
      iintro ⟨⟨⟨HS0, Hr⟩, Hg⟩, Ho, ⟨%d0, H0⟩, ⟨%d1, H1⟩, ⟨%d2, H2⟩⟩
      iapply (run0_C c (grid0.coords t) _ _ _ _ _ _ _ _ (iblk0 V c 0 t) hc0 ((hcond0_1 t).mpr h1) _ Set.univ _)
      isplitl [H0]; · iexact H0
      isplitl [H1]; · iexists _; iexact H1
      isplitl [H2]; · iexists _; iexact H2
      isplitl [HS0]; · iexact HS0
      iintro ⟨H0, H1, H2, HS0⟩
      iframe
    · have hc1 : ¬cond0_1 (grid0.coords t) := fun h => h1 ((hcond0_1 t).mp h)
      rw [Dat.leavesExact_idle (dat0 V c) 2 t (idleAt0_2 t hc1) (noFlush0_2 t hc1)]
      iintro ⟨⟨⟨HS0, Hr⟩, Hg⟩, Ho, ⟨%d0, H0⟩, ⟨%d1, H1⟩, H2⟩
      iapply (run0_B c (grid0.coords t) _ _ _ _ _ _ _ _ (iblk0 V c 0 t) hc0 hc1 _ Set.univ _)
      isplitl [H0]; · iexact H0
      isplitl [H1]; · iexists _; iexact H1
      isplitl [HS0]; · iexact HS0
      iintro ⟨H0, H1, HS0⟩
      iframe

theorem body_obligation0 (c : Dev nD) : BodyObligation (dat0 (F := F) V c) (defs₀ (F := F)) Variants.none () Set.univ := fun t => by
  rw [bigSep_W0, bigSep_W0]
  exact sound_body V c t

theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

theorem hout0 (c : Dev nD) : (dat0 V c).Φ (Fin.last cfg0.N) ⊢ Pipeline.ΦA spec0 c := by
  rw [show (dat0 V c).Φ (Fin.last cfg0.N) = PhiS V c cfg0.N (Nat.le_refl _) from rfl,
    PhiS_pos V c _ _ (by rw [show cfg0.N = 32 from N_0]; omega), PhiA0_eq]
  iintro ⟨⟨HS0, Hr⟩, Hg⟩
  isplitl [HS0 Hr]
  · isplitl [HS0]
    · iexists _; iexact HS0
    iexact Hr
  iexact Hg

end Cert.Kernel.R0

end
-- ==== Proof.BitsK1Body.lean ====
import proofs.«146407_j60627758350707_1_alg».proof.Proof.Gen.Kernel.Launch
import proofs.«146407_j60627758350707_1_alg».proof.Proof.Gen.Kernel.Skeleton
import proofs.«146407_j60627758350707_1_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

def iblk1 (V : (c : Dev nD) → (b : Ref sig .tc) → Buf (Elt F) ((c : Thread nD τ).loc b)) (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 16 = 0 := by decide +kernel

abbrev cond1_1 (i : grid1.Coords) : Prop := k1_cond2 i = 1#1
theorem hcond1_1 : ∀ t : Fin cfg1.N, cond1_1 (grid1.coords t) ↔ t.val % 16 = 15 := by decide +kernel

theorem idle1_7 : ∀ t : Fin cfg1.N, ¬t.val % 16 = 15 → cfg1.idle 7 (grid1.coords t) = true ∧ (cfg1.win 7).flush t = false := by decide +kernel
theorem live1_7 : ∀ t : Fin cfg1.N, t.val % 16 = 15 → cfg1.idle 7 (grid1.coords t) = false := by decide +kernel

abbrev scM1_0 : Memref sig .tc .vmem S1024x512 .f32 := Memref.whole cc1_scratch0

def Rest1 (c : Dev nD) : sProp 𝕄 :=
  Pipeline.scopedRestBut (Ix := Unit) (Name := ℕ) (U := UR sig nD τ) (Lvl := ℕ) (Val := Elt F) spec1 c [cc1_scratch0]

theorem PhiA1_eq (c : Dev nD) :
    (Pipeline.ΦA spec1 c : sProp 𝕄) = iprop(((∃ d, owns (c : Thread nD τ) scM1_0 fullShare d) ∗ Rest1 c) ∗ (∃ r, prngReg c r)) := by
  unfold Pipeline.ΦA Rest1; rw [Pipeline.scopedRest_split_of_list spec1 c [cc1_scratch0] (by decide) (by decide)]; simp only [scM1_0, owns_whole]; try rfl

theorem hz2 : (![0, 0] : Fin 2 → Nat) = fun _ => 0 := funext fun a => by fin_cases a <;> rfl
theorem hz1 : (![0] : Fin 1 → Nat) = fun _ => 0 := funext fun a => by fin_cases a <;> rfl

variable (c : Dev nD) (i : grid1.Coords) (arg2 : Memref sig .tc .vmem S1024x512 .f32) (harg2 : arg2.IsWhole) (arg3 : Memref sig .tc .vmem S512x1024 .f32) (harg3 : arg3.IsWhole) (arg4 : Memref sig .tc .vmem S1024x512 .f32) (harg4 : arg4.IsWhole) (arg5 : Memref sig .tc .vmem S512x512 .f32) (harg5 : arg5.IsWhole) (arg6 : Memref sig .tc .vmem S1024 .f32) (harg6 : arg6.IsWhole) (arg7 : Memref sig .tc .vmem S512 .f32) (harg7 : arg7.IsWhole) (arg8 : Memref sig .tc .vmem S1024 .f32) (harg8 : arg8.IsWhole) (arg9 : Memref sig .tc .vmem S1024 .f32) (harg9 : arg9.IsWhole) (arg10 : Memref sig .tc .vmem S1024x512 .f32) (harg10 : arg10.IsWhole)
  (x0 : Vec F S1024x512 .f32) (x1 : Vec F S512x1024 .f32) (x2 : Vec F S1024x512 .f32) (x3 : Vec F S512x512 .f32) (x4 : Vec F S1024 .f32) (x5 : Vec F S512 .f32) (x6 : Vec F S1024 .f32)

-- On a whole buffer the raw contents of x read back as x.
theorem owns_unread {S : Shape} (m : Memref sig .tc .vmem S .f32) (hm : m.IsWhole) (x : Vec F S .f32) :
    (m.view.loc (c : Thread nD τ) ↦[m.view.set]{fullShare} hm.unread x : sProp 𝕄)
      ⊢ iprop(∃ f, ⌜m.view.read (Elt F) f = x⌝ ∗ (m.view.loc (c : Thread nD τ) ↦[m.view.set]{fullShare} f)) := by
  iintro H; iexists _; isplitr; · ipureintro; exact hm.read_unread _
  iexact H

abbrev ins : sProp 𝕄 := iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6)

-- At the first reduction step the accumulator, whatever it held, is left at one step from zeros.
theorem runA (hc0 : cond1_0 i) (hc1 : ¬cond1_1 i) (E : Set ℕ) (K : PUnit → sProp 𝕄) :
    iprop(ins c arg2 arg3 arg4 arg5 arg6 arg7 arg8 x0 x1 x2 x3 x4 x5 x6 ∗ (∃ d, owns (c : Thread nD τ) arg10 fullShare d)
        ∗ (iprop(ins c arg2 arg3 arg4 arg5 arg6 arg7 arg8 x0 x1 x2 x3 x4 x5 x6 ∗ owns (c : Thread nD τ) arg10 fullShare (k1_pay2 x0 x1 x5 x3 (k1_pay1 (F := F)))) -∗ K ⟨⟩))
      ⊢ wp frame (wpE (defs₀ (F := F)) Variants.none c none) E (cc1__main_kernel i arg2 harg2 arg3 harg3 arg4 harg4 arg5 harg5 arg6 harg6 arg7 harg7 arg8 harg8 arg9 harg9 arg10 harg10) K := by
  simp only [cc1__main_kernel_eq_skeleton]; unfold cc1__main_kernel_skel
  unfold ins owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩⟩, ⟨%ds0, %fs0, -, HS0⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
  sl_exec (disch := first | exact hc0 | exact hc1)
  sl_step
  iapply Hk
  isplitl [H0 H1 H2 H3 H4 H5 H6]
  · isplitl [H0]; · iapply owns_unread c _ harg2; iexact H0
    isplitl [H1]; · iapply owns_unread c _ harg3; iexact H1
    isplitl [H2]; · iapply owns_unread c _ harg4; iexact H2
    isplitl [H3]; · iapply owns_unread c _ harg5; iexact H3
    isplitl [H4]; · iapply owns_unread c _ harg6; iexact H4
    isplitl [H5]; · iapply owns_unread c _ harg7; iexact H5
    iapply owns_unread c _ harg8; iexact H6
  iexists _; isplitr; swap; · iexact HS0
  ipureintro
  refine (View.read_writes_eq_canon _ _ _ (View.cover_of_tiledL _ S1024x512.size (by sl_kernel_rfl))).trans ?_
  sl_unfold_words
  rw [View.canon_cons_unit_zero (S := S1024x512) hz2, View.readCov_unit_zero (S := S1024x512) _ hz2]
  simp only [View.readAt_eq_ld, Memref.IsWhole.read_unread, View.ld_unit_zero (S := S1024x512) hz2, View.ld_unit_zero (S := S512x1024) hz2, View.ld_unit_zero (S := S512x512) hz2, View.ld_unit_zero (S := S1024) hz1, View.ld_unit_zero (S := S512) hz1, View.readCov_unit_zero (S := S1024x512) _ hz2]

-- At a middle step the accumulator gets one step added.
theorem runB (hc0 : ¬cond1_0 i) (hc1 : ¬cond1_1 i) (xs0 : Vec F S1024x512 .f32) (E : Set ℕ) (K : PUnit → sProp 𝕄) :
    iprop(ins c arg2 arg3 arg4 arg5 arg6 arg7 arg8 x0 x1 x2 x3 x4 x5 x6 ∗ owns (c : Thread nD τ) arg10 fullShare xs0
        ∗ (iprop(ins c arg2 arg3 arg4 arg5 arg6 arg7 arg8 x0 x1 x2 x3 x4 x5 x6 ∗ owns (c : Thread nD τ) arg10 fullShare (k1_pay2 x0 x1 x5 x3 xs0)) -∗ K ⟨⟩))
      ⊢ wp frame (wpE (defs₀ (F := F)) Variants.none c none) E (cc1__main_kernel i arg2 harg2 arg3 harg3 arg4 harg4 arg5 harg5 arg6 harg6 arg7 harg7 arg8 harg8 arg9 harg9 arg10 harg10) K := by
  simp only [cc1__main_kernel_eq_skeleton]; unfold cc1__main_kernel_skel
  unfold ins owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩⟩, ⟨%fs0, %hfs0, HS0⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hfs0
  sl_exec (disch := first | exact hc0 | exact hc1)
  sl_step
  iapply Hk
  isplitl [H0 H1 H2 H3 H4 H5 H6]
  · isplitl [H0]; · iapply owns_unread c _ harg2; iexact H0
    isplitl [H1]; · iapply owns_unread c _ harg3; iexact H1
    isplitl [H2]; · iapply owns_unread c _ harg4; iexact H2
    isplitl [H3]; · iapply owns_unread c _ harg5; iexact H3
    isplitl [H4]; · iapply owns_unread c _ harg6; iexact H4
    isplitl [H5]; · iapply owns_unread c _ harg7; iexact H5
    iapply owns_unread c _ harg8; iexact H6
  iexists _; isplitr; swap; · iexact HS0
  ipureintro
  refine (View.read_writes_eq_canon _ _ _ (View.cover_of_tiledL _ S1024x512.size (by sl_kernel_rfl))).trans ?_
  sl_unfold_words
  rw [View.canon_unit_zero hz2]
  simp only [View.readAt_eq_ld, Memref.IsWhole.read_unread, View.ld_unit_zero (S := S1024x512) hz2, View.ld_unit_zero (S := S512x1024) hz2, View.ld_unit_zero (S := S512x512) hz2, View.ld_unit_zero (S := S1024) hz1, View.ld_unit_zero (S := S512) hz1, View.readCov_unit_zero (S := S1024x512) _ hz2]

-- At the last step the accumulator gets its step and the output block, whatever it held, the row sums over the finished accumulator.
theorem runC (hc0 : ¬cond1_0 i) (hc1 : cond1_1 i) (xs0 : Vec F S1024x512 .f32) (E : Set ℕ) (K : PUnit → sProp 𝕄) :
    iprop(ins c arg2 arg3 arg4 arg5 arg6 arg7 arg8 x0 x1 x2 x3 x4 x5 x6 ∗ (∃ d, owns (c : Thread nD τ) arg9 fullShare d) ∗ owns (c : Thread nD τ) arg10 fullShare xs0
        ∗ (iprop(ins c arg2 arg3 arg4 arg5 arg6 arg7 arg8 x0 x1 x2 x3 x4 x5 x6 ∗ owns (c : Thread nD τ) arg9 fullShare (k1_pay3 x4 x6 x2 (k1_pay2 x0 x1 x5 x3 xs0)) ∗ owns (c : Thread nD τ) arg10 fullShare (k1_pay2 x0 x1 x5 x3 xs0)) -∗ K ⟨⟩))
      ⊢ wp frame (wpE (defs₀ (F := F)) Variants.none c none) E (cc1__main_kernel i arg2 harg2 arg3 harg3 arg4 harg4 arg5 harg5 arg6 harg6 arg7 harg7 arg8 harg8 arg9 harg9 arg10 harg10) K := by
  simp only [cc1__main_kernel_eq_skeleton]; unfold cc1__main_kernel_skel
  unfold ins owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩⟩, ⟨%d7, %f7, -, H7⟩, ⟨%fs0, %hfs0, HS0⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hfs0
  sl_exec (disch := first | exact hc0 | exact hc1)
  sl_step
  iapply Hk
  isplitl [H0 H1 H2 H3 H4 H5 H6]
  · isplitl [H0]; · iapply owns_unread c _ harg2; iexact H0
    isplitl [H1]; · iapply owns_unread c _ harg3; iexact H1
    isplitl [H2]; · iapply owns_unread c _ harg4; iexact H2
    isplitl [H3]; · iapply owns_unread c _ harg5; iexact H3
    isplitl [H4]; · iapply owns_unread c _ harg6; iexact H4
    isplitl [H5]; · iapply owns_unread c _ harg7; iexact H5
    iapply owns_unread c _ harg8; iexact H6
  isplitl [H7]
  · iexists _; isplitr; swap; · iexact H7
    ipureintro
    refine (View.read_writes_eq_canon _ _ _ (View.cover_of_tiledL _ S1024.size (by sl_kernel_rfl))).trans ?_
    sl_unfold_words
    rw [View.canon_unit_zero hz1]
    simp only [View.readAt_eq_ld, Memref.IsWhole.read_unread, View.ld_unit_zero (S := S1024x512) hz2, View.ld_unit_zero (S := S512x1024) hz2, View.ld_unit_zero (S := S512x512) hz2, View.ld_unit_zero (S := S1024) hz1, View.ld_unit_zero (S := S512) hz1, View.readCov_unit_zero (S := S1024x512) _ hz2]
  iexists _; isplitr; swap; · iexact HS0
  ipureintro
  refine (View.read_writes_eq_canon _ _ _ (View.cover_of_tiledL _ S1024x512.size (by sl_kernel_rfl))).trans ?_
  sl_unfold_words
  rw [View.canon_unit_zero hz2]
  simp only [View.readAt_eq_ld, Memref.IsWhole.read_unread, View.ld_unit_zero (S := S1024x512) hz2, View.ld_unit_zero (S := S512x1024) hz2, View.ld_unit_zero (S := S512x512) hz2, View.ld_unit_zero (S := S1024) hz1, View.ld_unit_zero (S := S512) hz1, View.readCov_unit_zero (S := S1024x512) _ hz2]

end Cert.Kernel.R1

end
-- ==== Proof.BitsK1Frame.lean ====
import proofs.«146407_j60627758350707_1_alg».proof.Proof.BitsK1Body

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev step1 (c : Dev nD) (t : Fin cfg1.N) (xs : Vec F S1024x512 .f32) : Vec F S1024x512 .f32 :=
  k1_pay2 (iblk1 V c 0 t) (iblk1 V c 1 t) (iblk1 V c 5 t) (iblk1 V c 3 t) xs

-- The accumulator after point n: one step at every point, from zeros where the reduction coordinate is 0.
def acc1 (c : Dev nD) : (n : ℕ) → n < cfg1.N → Vec F S1024x512 .f32
  | 0, hn => step1 V c ⟨0, hn⟩ k1_pay1
  | n + 1, hn => step1 V c ⟨n + 1, hn⟩ (if (n + 1) % 16 = 0 then k1_pay1 else acc1 c n (Nat.lt_of_succ_lt hn))

theorem acc1_eq (c : Dev nD) (t : Fin cfg1.N) :
    acc1 V c t.val t.isLt = step1 V c t (if t.val % 16 = 0 then k1_pay1 else acc1 V c (t.val - 1) (Nat.lt_of_le_of_lt (Nat.sub_le _ _) t.isLt)) := by
  obtain ⟨n, hn⟩ := t; cases n <;> rfl

-- Between points the accumulator holds what the point before left; before the first point, anything.
def PhiS1 (c : Dev nD) : (n : ℕ) → n ≤ cfg1.N → sProp 𝕄
  | 0, _ => Pipeline.ΦA spec1 c
  | n + 1, hn => iprop((owns (c : Thread nD τ) scM1_0 fullShare (acc1 V c n hn) ∗ Rest1 c) ∗ (∃ r, prngReg c r))

theorem PhiS1_pos (c : Dev nD) (n : ℕ) (h : n ≤ cfg1.N) (hz : n ≠ 0) :
    PhiS1 V c n h = iprop((owns (c : Thread nD τ) scM1_0 fullShare (acc1 V c (n - 1) (by omega)) ∗ Rest1 c) ∗ (∃ r, prngReg c r)) := by
  cases n with
  | zero => exact absurd rfl hz
  | succ n => rfl

-- What the accumulator holds can be forgotten.
theorem Phi_out1 (c : Dev nD) : ∀ (n : ℕ) (h : n ≤ cfg1.N), PhiS1 V c n h ⊢ Pipeline.ΦA spec1 c
  | 0, _ => Idealize.SL.BI.Entails.refl _
  | n + 1, h => by
    rw [PhiA1_eq]; unfold PhiS1
    iintro ⟨⟨HS0, R⟩, Hg⟩
    iframe
    iexists _; iexact HS0

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => k1_pay3 (iblk1 V c 4 t) (iblk1 V c 6 t) (iblk1 V c 2 t) (acc1 V c t.val t.isLt)
  Φ t := PhiS1 V c t.val (Nat.le_of_lt_succ t.isLt)
  q := fun
    | ⟨0, _⟩ => fullShare.left
    | ⟨1, _⟩ => fullShare.right
    | ⟨2, _⟩ => fullShare.left
    | ⟨3, _⟩ => fullShare.right
    | ⟨4, _⟩ => fullShare.left
    | ⟨5, _⟩ => fullShare.right
    | ⟨6, _⟩ => fullShare
    | ⟨7, _⟩ => fullShare
  owed _ := 0

theorem A_eq1 (c : Dev nD) (w : Fin cfg1.W) : (dat1 V c).A w = V c (Pipeline.arrRef spec1 w) := rfl

theorem before1 (c : Dev nD) (t : Fin cfg1.N) :
    (∀ d, (dat1 V c).before 0 t d = iblk1 V c 0 t) ∧ (∀ d, (dat1 V c).before 1 t d = iblk1 V c 1 t) ∧ (∀ d, (dat1 V c).before 2 t d = iblk1 V c 2 t) ∧ (∀ d, (dat1 V c).before 3 t d = iblk1 V c 3 t) ∧ (∀ d, (dat1 V c).before 4 t d = iblk1 V c 4 t) ∧ (∀ d, (dat1 V c).before 5 t d = iblk1 V c 5 t) ∧ (∀ d, (dat1 V c).before 6 t d = iblk1 V c 6 t) := by
  refine ⟨?_, ?_, ?_, ?_, ?_, ?_, ?_⟩ <;>
    exact fun d => ((dat1 V c).before_in_eq_fetched _ rfl (fun _ => rfl) (fun _ _ _ => rfl) (fun _ => rfl) t d).trans rfl

abbrev ms1_0 (t : Fin cfg1.N) : Memref sig .tc .vmem S1024x512 .f32 := win1_0.stage (cfg1.slots t 0)
abbrev ms1_1 (t : Fin cfg1.N) : Memref sig .tc .vmem S512x1024 .f32 := win1_1.stage (cfg1.slots t 1)
abbrev ms1_2 (t : Fin cfg1.N) : Memref sig .tc .vmem S1024x512 .f32 := win1_2.stage (cfg1.slots t 2)
abbrev ms1_3 (t : Fin cfg1.N) : Memref sig .tc .vmem S512x512 .f32 := win1_3.stage (cfg1.slots t 3)
abbrev ms1_4 (t : Fin cfg1.N) : Memref sig .tc .vmem S1024 .f32 := win1_4.stage (cfg1.slots t 4)
abbrev ms1_5 (t : Fin cfg1.N) : Memref sig .tc .vmem S512 .f32 := win1_5.stage (cfg1.slots t 5)
abbrev ms1_6 (t : Fin cfg1.N) : Memref sig .tc .vmem S1024 .f32 := win1_6.stage (cfg1.slots t 6)
abbrev ms1_7 (t : Fin cfg1.N) : Memref sig .tc .vmem S1024 .f32 := win1_7.stage (cfg1.slots t 7)

theorem sound_body1 (c : Dev nD) (t : Fin cfg1.N) :
    iprop(PhiS1 V c t.val (Nat.le_of_lt t.isLt) ∗ (dat1 V c).owesAt () t.castSucc
      ∗ (∃ d, owns (c : Thread nD τ) (ms1_0 t) fullShare ((dat1 V c).before 0 t d))
      ∗ (∃ d, owns (c : Thread nD τ) (ms1_1 t) fullShare ((dat1 V c).before 1 t d))
      ∗ (∃ d, owns (c : Thread nD τ) (ms1_2 t) fullShare ((dat1 V c).before 2 t d))
      ∗ (∃ d, owns (c : Thread nD τ) (ms1_3 t) fullShare ((dat1 V c).before 3 t d))
      ∗ (∃ d, owns (c : Thread nD τ) (ms1_4 t) fullShare ((dat1 V c).before 4 t d))
      ∗ (∃ d, owns (c : Thread nD τ) (ms1_5 t) fullShare ((dat1 V c).before 5 t d))
      ∗ (∃ d, owns (c : Thread nD τ) (ms1_6 t) fullShare ((dat1 V c).before 6 t d))
      ∗ (∃ d, owns (c : Thread nD τ) (ms1_7 t) fullShare ((dat1 V c).before 7 t d)))
    ⊢ wp frame (wpE (defs₀ (F := F)) Variants.none c none) Set.univ (bodyAt1 t) (fun _ =>
      iprop(((owns (c : Thread nD τ) scM1_0 fullShare (acc1 V c t.val t.isLt) ∗ Rest1 c) ∗ (∃ r, prngReg c r)) ∗ (dat1 V c).owesAt () t.castSucc
        ∗ owns (c : Thread nD τ) (ms1_0 t) fullShare (iblk1 V c 0 t)
        ∗ owns (c : Thread nD τ) (ms1_1 t) fullShare (iblk1 V c 1 t)
        ∗ owns (c : Thread nD τ) (ms1_2 t) fullShare (iblk1 V c 2 t)
        ∗ owns (c : Thread nD τ) (ms1_3 t) fullShare (iblk1 V c 3 t)
        ∗ owns (c : Thread nD τ) (ms1_4 t) fullShare (iblk1 V c 4 t)
        ∗ owns (c : Thread nD τ) (ms1_5 t) fullShare (iblk1 V c 5 t)
        ∗ owns (c : Thread nD τ) (ms1_6 t) fullShare (iblk1 V c 6 t)
        ∗ (dat1 V c).leavesExact 7 t)) := by
  unfold bodyAt1
  obtain ⟨b0, b1, b2, b3, b4, b5, b6⟩ := before1 V c t
  simp only [b0, b1, b2, b3, b4, b5, b6]
  by_cases h0 : t.val % 16 = 0
  · have h1 : ¬t.val % 16 = 15 := by omega
    obtain ⟨hi, hf⟩ := idle1_7 t h1
    rw [Dat.leavesExact_idle (dat1 V c) 7 t hi hf, acc1_eq V c t, if_pos h0]
    refine (sep_mono (Phi_out1 V c _ _) .rfl).trans ?_
    rw [PhiA1_eq]
    iintro ⟨⟨⟨HS0, R⟩, Hg⟩, Ho, ⟨%d0, H0⟩, ⟨%d1, H1⟩, ⟨%d2, H2⟩, ⟨%d3, H3⟩, ⟨%d4, H4⟩, ⟨%d5, H5⟩, ⟨%d6, H6⟩, H7⟩
    iapply runA c (grid1.coords t) _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) ((hcond1_0 t).mpr h0) (fun h => h1 ((hcond1_1 t).mp h)) Set.univ _
    unfold ins
    iframe H0 H1 H2 H3 H4 H5 H6 HS0
    iintro ⟨⟨H0, H1, H2, H3, H4, H5, H6⟩, HS0⟩
    iframe
  · have hz : t.val ≠ 0 := fun e => h0 (by rw [e])
    by_cases h1 : t.val % 16 = 15
    · rw [show (dat1 V c).leavesExact 7 t = owns (c : Thread nD τ) (ms1_7 t) fullShare (k1_pay3 (iblk1 V c 4 t) (iblk1 V c 6 t) (iblk1 V c 2 t) (acc1 V c t.val t.isLt)) from by
        unfold Dat.leavesExact; rw [live1_7 t h1]; rfl, acc1_eq V c t, if_neg h0, PhiS1_pos V c _ _ hz]
      iintro ⟨⟨⟨HS0, R⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply runC c (grid1.coords t) _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (fun h => h0 ((hcond1_0 t).mp h)) ((hcond1_1 t).mpr h1) _ Set.univ _
      unfold ins
      iframe H0 H1 H2 H3 H4 H5 H6 HS0
      isplitl [H7]; · iexists _; iexact H7
      iintro ⟨⟨H0, H1, H2, H3, H4, H5, H6⟩, H7, HS0⟩
      iframe
    · obtain ⟨hi, hf⟩ := idle1_7 t h1
      rw [Dat.leavesExact_idle (dat1 V c) 7 t hi hf, acc1_eq V c t, if_neg h0, PhiS1_pos V c _ _ hz]
      iintro ⟨⟨⟨HS0, R⟩, Hg⟩, Ho, ⟨%d0, H0⟩, ⟨%d1, H1⟩, ⟨%d2, H2⟩, ⟨%d3, H3⟩, ⟨%d4, H4⟩, ⟨%d5, H5⟩, ⟨%d6, H6⟩, H7⟩
      iapply runB c (grid1.coords t) _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (fun h => h0 ((hcond1_0 t).mp h)) (fun h => h1 ((hcond1_1 t).mp h)) _ Set.univ _
      unfold ins
      iframe H0 H1 H2 H3 H4 H5 H6 HS0
      iintro ⟨⟨H0, H1, H2, H3, H4, H5, H6⟩, HS0⟩
      iframe

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := Idealize.SL.BI.Entails.refl _

theorem hout1 (c : Dev nD) : (dat1 V c).Φ (Fin.last cfg1.N) ⊢ Pipeline.ΦA spec1 c := Phi_out1 V c cfg1.N (Nat.le_refl _)

end Cert.Kernel.R1

end
-- ==== Proof.BitsKAll.lean ====
import proofs.«146407_j60627758350707_1_alg».proof.Proof.BitsKLaunch
import proofs.«146407_j60627758350707_1_alg».proof.Proof.BitsK0Frame
import proofs.«146407_j60627758350707_1_alg».proof.Proof.BitsK1Frame

noncomputable section

namespace Cert.Kernel.All

open Cert.Kernel Cert.Kernel.Gen
open Idealize.ShloMosaic Idealize.ShloMosaic.TcCoe
open Idealize.SL Idealize.SL.RA Idealize.SL.Sem

variable {F : FTy → Type} [FloatOps F]

/-- The two regions' own proof data meet what the launch asks of them. -/
theorem data0 : Launch.Data (F := F) R0.dat0 fun _ => fullShare :=
  ⟨R0.A_eq0, fun _ _ => rfl, fun _ _ _ => rfl, fun _ _ => rfl, R0.body_obligation0, R0.hin0, R0.hout0⟩

theorem data1 : Launch.Data (F := F) R1.dat1 Shares.q1 :=
  ⟨R1.A_eq1, fun _ _ => funext fun w => by fin_cases w <;> rfl, fun _ _ _ => rfl, fun _ _ => rfl, R1.body_obligation1, R1.hin1, R1.hout1⟩

variable (m : (ℓ : Loc nD τ sig) → Buf (Elt F) ℓ) (ρ : Dev nD → PrngReg)

/-- What the two regions leave in the buffers they may change. -/
abbrev outs : Gen.Outs (F := F) := Launch.outs R0.dat0 R1.dat1 m

theorem outs_v0_0 (c : Dev nD) : outs m 1 main_v0_0 c = (R0.dat0 (fun c b => Gen.V0 m c b) c).arrAt 1 cfg0.N :=
  Launch.outs_v0_0 R0.dat0 R1.dat1 m c

theorem outs_v0_1 (c : Dev nD) : outs m 1 main_v0_1 c = (R0.dat0 (fun c b => Gen.V0 m c b) c).arrAt 2 cfg0.N :=
  Launch.outs_v0_1 R0.dat0 R1.dat1 m c

theorem outs_v10 (c : Dev nD) : outs m 6 main_v10 c = (R1.dat1 (fun c b => Gen.V5 m (outs m) c b) c).arrAt 7 cfg1.N :=
  Launch.outs_v10 R0.dat0 R1.dat1 m c

/-- THE VALUE: the result buffer ends at what the last valuation says of it, and both argument arrays end as launched. -/
theorem value : θ_run defs (onTc (τ := τ) (main (F := F))) ⟨m, fun _ => 0, ρ⟩ (fun r => ∀ c : Dev nD,
      r.2.mem ((c.tc : Thread nD τ).loc main_v11) = Gen.V7 m (outs m) c main_v11
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  have mem_uc (b : Ref sig .tc) (h : ¬ (Proc.devRef .tc b : DevRef τ sig).isScoped) : Proc.devRef .tc b ∈ Pipeline.ucRefs τ sig :=
    Finset.mem_filter.mpr ⟨StableHlo.devRef_mem_tcRefs b, h⟩
  (θ_run defs _ _).mono (fun _ h c =>
    ⟨h c (Proc.devRef .tc main_v11) (mem_uc main_v11 (by decide)),
      (h c (Proc.devRef .tc main_arg0) (mem_uc main_arg0 (by decide))).trans (Gen.V7_main_arg0 m (outs m) c),
      (h c (Proc.devRef .tc main_arg1) (mem_uc main_arg1 (by decide))).trans (Gen.V7_main_arg1 m (outs m) c)⟩)
    (Launch.run_all_of m data0 data1 ρ)

/-- THE FRAME. Both argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (value m ρ)

end Cert.Kernel.All

end
-- ==== Proof.LibBlockSum.lean ====
import Mathlib.Algebra.BigOperators.Fin
import Mathlib.Data.Fintype.BigOperators
import Mathlib.Logic.Equiv.Fin.Basic

namespace Cert.BlockSum

open scoped BigOperators

theorem block_lt {B S : ℕ} (b : Fin B) (r : Fin S) : S * b.val + r.val < B * S :=
  calc S * b.val + r.val < S * b.val + S := Nat.add_lt_add_left r.isLt _
    _ = S * (b.val + 1) := (Nat.mul_succ _ _).symm
    _ ≤ S * B := Nat.mul_le_mul_left _ b.isLt
    _ = B * S := Nat.mul_comm _ _

/-- Every index below `B * S` is `S * b + r` for exactly one block `b` and one offset `r`. -/
theorem sum_blocks {M : Type*} [AddCommMonoid M] (B S : ℕ) (f : Fin (B * S) → M) :
    ∑ b : Fin B, ∑ r : Fin S, f ⟨S * b.val + r.val, block_lt b r⟩ = ∑ n : Fin (B * S), f n := by
  rw [← finProdFinEquiv.sum_comp, Fintype.sum_prod_type]
  exact Finset.sum_congr rfl fun b _ => Finset.sum_congr rfl fun r _ => congrArg f (Fin.ext (Nat.add_comm _ _))

end Cert.BlockSum
-- ==== Proof.K0Value.lean ====
import proofs.«146407_j60627758350707_1_alg».proof.Proof.K0Frame
import proofs.«146407_j60627758350707_1_alg».proof.Proof.LibBlockSum
import Idealize.ShloMosaic.Lib.ValueIdx
import Idealize.ShloMosaic.Lib.Pipeline.Value
import Idealize.ShloMosaic.PureOps.Ideal.Laws

noncomputable section

open Idealize.ShloMosaic Idealize.ShloMosaic.TcCoe Idealize.SL.Sem
open Idealize.ShloMosaic.Pipeline (Dat)
open Idealize.ShloMosaic.ValueIdx

namespace Cert.KernelIdeal.R0V

open Cert.KernelIdeal Cert.KernelIdeal.Gen Cert.KernelIdeal.R0

theorem pay1_apply (q : Fin 8192) : (k0_pay1 (F := Ideal) : FVec Ideal S8192 .f32) (ix1 q) = 0 := by
  unfold k0_pay1
  rw [shapeCast_self]
  exact Ideal.ofBits_zero_f32

theorem pay2_apply (x : Vec Ideal S256x8192 .f32) (r : Fin 256) :
    (k0_pay2 (F := Ideal) x : FVec Ideal S256 .f32) (ix1 r) = ∑ j : Fin 8192, x (ix2 r j) := by
  unfold k0_pay2
  refine (Ideal.multiReduction_add_single (φ := .f32) x _ reduces_S256x8192_S256 (.inl rfl) rfl (ix1 r)).trans ?_
  refine Finset.sum_congr rfl fun j _ => congrArg x ?_
  funext a
  match a with
  | ⟨0, _⟩ => rfl
  | ⟨1, _⟩ => rfl

theorem pay3_apply (x : Vec Ideal S256x8192 .f32) (s : Vec Ideal S8192 .f32) (q : Fin 8192) :
    (k0_pay3 (F := Ideal) x s : FVec Ideal S8192 .f32) (ix1 q) = s (ix1 q) + ∑ r : Fin 256, x (ix2 r q) := by
  unfold k0_pay3
  rw [shapeCast_self]
  refine (addf_apply (φ := .f32) s _ (ix1 q)).trans ?_
  refine congrArg (s (ix1 q) + ·) ?_
  refine (Ideal.multiReduction_add_single (φ := .f32) x _ reduces_S256x8192_S8192 (.inl rfl) rfl (ix1 q)).trans ?_
  refine Finset.sum_congr rfl fun r _ => congrArg x ?_
  funext a
  match a with
  | ⟨0, _⟩ => rfl
  | ⟨1, _⟩ => rfl

variable (V : (c : Dev nD) → (b : Ref sig .tc) → Buf (Elt Ideal) ((c : Thread nD τ).loc b))

abbrev xarr (c : Dev nD) : Vec Ideal S8192x8192 .f32 := V c main_arg0

abbrev xblk (c : Dev nD) (t : Fin cfg0.N) : Vec Ideal S256x8192 .f32 := iblk0 V c 0 t

theorem index_facts : ∀ t : Fin cfg0.N, win0_0.index t (0 : Fin 2) = t.val ∧ win0_0.index t (1 : Fin 2) = 0
    ∧ win0_1.index t (0 : Fin 1) = t.val ∧ win0_2.index t (0 : Fin 1) = 0 :=
  (by decide +kernel : ∀ t : Fin grid0.N, win0_0.index t (0 : Fin 2) = t.val ∧ win0_0.index t (1 : Fin 2) = 0
    ∧ win0_1.index t (0 : Fin 1) = t.val ∧ win0_2.index t (0 : Fin 1) = 0)

theorem xblk_apply (c : Dev nD) (t : Fin cfg0.N) (r : Fin 256) (j : Fin 8192) (p : Fin 8192)
    (hp : p.val = 256 * t.val + r.val) : xblk V c t (ix2 r j) = xarr V c (ix2 p j) := by
  obtain ⟨e0, e1, -, -⟩ := index_facts t
  unfold xblk iblk0
  rw [View.read_apply]
  show V c main_arg0 _ = V c main_arg0 _
  congr 1
  funext a
  apply Fin.ext
  match a with
  | ⟨0, _⟩ => show win0_0.index t (0 : Fin 2) * 256 + 1 * r.val = p.val; rw [e0, hp]; omega
  | ⟨1, _⟩ => show win0_0.index t (1 : Fin 2) * 8192 + 1 * j.val = j.val; rw [e1]; omega

theorem sum_32x256 {M : Type*} [AddCommMonoid M] (f : Fin 8192 → M) :
    ∑ b : Fin 32, ∑ r : Fin 256, f ⟨256 * b.val + r.val, by omega⟩ = ∑ n : Fin 8192, f n :=
  Cert.BlockSum.sum_blocks 32 256 f

def colpart (c : Dev nD) (q : Fin 8192) (k : ℕ) : EReal :=
  if h : k < 32 then ∑ r : Fin 256, xarr V c (ix2 (⟨256 * k + r.val, by omega⟩ : Fin 8192) q) else 0

theorem colpart_blk (c : Dev nD) (q : Fin 8192) (t : Fin cfg0.N) :
    ∑ r : Fin 256, xblk V c t (ix2 r q) = colpart V c q t.val := by
  have ht : t.val < 32 := t.isLt
  unfold colpart
  rw [dif_pos ht]
  exact Finset.sum_congr rfl fun r _ => xblk_apply V c t r q _ rfl

theorem colpart_total (c : Dev nD) (q : Fin 8192) :
    ∑ k ∈ Finset.range 32, colpart V c q k = ∑ i : Fin 8192, xarr V c (ix2 i q) := by
  rw [Finset.sum_range (fun k => colpart V c q k), ← sum_32x256 (fun i => xarr V c (ix2 i q))]
  refine Finset.sum_congr rfl fun b _ => ?_
  unfold colpart
  rw [dif_pos b.isLt]

theorem mem_blk1 (t : Fin cfg0.N) (i : S8192.Idx) :
    i ∈ ((cfg0.win 1).blk t).view.set ↔ ∀ a : Fin 1, win0_1.index t a * S256.size a ≤ (i a).val ∧ (i a).val < win0_1.index t a * S256.size a + S256.size a := by
  show i ∈ ((View.whole main_v0_0).slice (win0_1.rect t)).set ↔ _
  rw [View.set_slice_whole, Rect.mem_set_unit]
  exact Iff.rfl

theorem mem_blk2 (t : Fin cfg0.N) (i : S8192.Idx) :
    i ∈ ((cfg0.win 2).blk t).view.set ↔ ∀ a : Fin 1, win0_2.index t a * S8192.size a ≤ (i a).val ∧ (i a).val < win0_2.index t a * S8192.size a + S8192.size a := by
  show i ∈ ((View.whole main_v0_1).slice (win0_2.rect t)).set ↔ _
  rw [View.set_slice_whole, Rect.mem_set_unit]
  exact Iff.rfl

theorem cover1 (i : S8192.Idx) : ∃ t : Fin cfg0.N, (cfg0.win 1).flush t = true ∧ i ∈ ((cfg0.win 1).blk t).view.set := by
  have h0 : (i 0 : Nat) < 8192 := (i 0).isLt
  refine ⟨⟨(i 0 : Nat) / 256, by rw [show cfg0.N = 32 from N_0]; omega⟩, flush0_1 _, ?_⟩
  rw [mem_blk1]
  intro a
  obtain ⟨-, -, e, -⟩ := index_facts ⟨(i 0 : Nat) / 256, by rw [show cfg0.N = 32 from N_0]; omega⟩
  match a with
  | ⟨0, _⟩ =>
    show win0_1.index _ (0 : Fin 1) * 256 ≤ (i 0 : Nat) ∧ (i 0 : Nat) < win0_1.index _ (0 : Fin 1) * 256 + 256
    rw [e]; dsimp only; omega

theorem cover2 (i : S8192.Idx) : ∃ t : Fin cfg0.N, (cfg0.win 2).flush t = true ∧ i ∈ ((cfg0.win 2).blk t).view.set := by
  have h0 : (i 0 : Nat) < 8192 := (i 0).isLt
  refine ⟨⟨31, by rw [show cfg0.N = 32 from N_0]; omega⟩, (flush0_2 _).mpr rfl, ?_⟩
  rw [mem_blk2]
  intro a
  obtain ⟨-, -, -, e⟩ := index_facts ⟨31, by rw [show cfg0.N = 32 from N_0]; omega⟩
  match a with
  | ⟨0, _⟩ =>
    show win0_2.index _ (0 : Fin 1) * 8192 ≤ (i 0 : Nat) ∧ (i 0 : Nat) < win0_2.index _ (0 : Fin 1) * 8192 + 8192
    rw [e]; omega

/-- The accumulator after point `n` holds, at `q`, the first `n + 1` strips' shares of column `q`'s sum. -/
theorem acc_inv (c : Dev nD) (q : Fin 8192) : ∀ (n : ℕ) (hn : n < cfg0.N),
    (acc0 V c n hn : Vec Ideal S8192 .f32) (ix1 q) = ∑ k ∈ Finset.range (n + 1), colpart V c q k
  | 0, hn => by
    show (k0_pay3 (F := Ideal) (xblk V c ⟨0, hn⟩) (k0_pay1 (F := Ideal)) : FVec Ideal S8192 .f32) (ix1 q) = _
    rw [pay3_apply, pay1_apply, zero_add, colpart_blk V c q ⟨0, hn⟩, Finset.sum_range_one]
  | n + 1, hn => by
    show (k0_pay3 (F := Ideal) (xblk V c ⟨n + 1, hn⟩) (acc0 V c n (Nat.lt_of_succ_lt hn)) : FVec Ideal S8192 .f32) (ix1 q) = _
    rw [pay3_apply, acc_inv c q n _, colpart_blk V c q ⟨n + 1, hn⟩, Finset.sum_range_succ _ (n + 1)]

abbrev rowsums (c : Dev nD) : Vec Ideal S8192 .f32 := fun i => ∑ j : Fin 8192, xarr V c (ix2 (i 0 : Fin 8192) j)

abbrev colsums (c : Dev nD) : Vec Ideal S8192 .f32 := fun i => ∑ k : Fin 8192, xarr V c (ix2 k (i 0 : Fin 8192))

theorem flushed1_eq (c : Dev nD) (t : Fin cfg0.N) (hf : (cfg0.win 1).flush t = true) :
    (dat0 (F := Ideal) V c).flushed 1 t = ((cfg0.win 1).blk t).view.read (Elt Ideal) (rowsums V c) := by
  show (cfg0.win 1).cut (grid0.coords t) ((dat0 (F := Ideal) V c).after 1 t) = _
  rw [after0_1]
  funext y
  obtain ⟨r, rfl⟩ : ∃ r : Fin 256, y = ix1 r := ⟨y 0, eq_ix1 y⟩
  obtain ⟨-, -, e, -⟩ := index_facts t
  refine (pay2_apply (xblk V c t) r).trans (Finset.sum_congr rfl fun j _ => xblk_apply V c t r j _ ?_)
  show win0_1.index t (0 : Fin 1) * 256 + 1 * r.val = 256 * t.val + r.val
  rw [e]; omega

theorem flushed2_eq (c : Dev nD) (t : Fin cfg0.N) (hf : (cfg0.win 2).flush t = true) :
    (dat0 (F := Ideal) V c).flushed 2 t = ((cfg0.win 2).blk t).view.read (Elt Ideal) (colsums V c) := by
  have h31 : t.val % 32 = 31 := (flush0_2 t).mp hf
  show (cfg0.win 2).cut (grid0.coords t) ((dat0 (F := Ideal) V c).after 2 t) = _
  rw [after0_2]
  funext y
  obtain ⟨q, rfl⟩ : ∃ q : Fin 8192, y = ix1 q := ⟨y 0, eq_ix1 y⟩
  obtain ⟨-, -, -, e⟩ := index_facts t
  have ht : t.val < 32 := t.isLt
  refine (acc_inv V c q t.val t.isLt).trans ?_
  rw [show t.val + 1 = 32 by omega, colpart_total]
  show _ = colsums V c (((cfg0.win 2).blk t).view.emb (ix1 q))
  refine Finset.sum_congr rfl fun k _ => congrArg (xarr V c) ?_
  funext a
  apply Fin.ext
  match a with
  | ⟨0, _⟩ => rfl
  | ⟨1, _⟩ => show q.val = win0_2.index t (0 : Fin 1) * 8192 + 1 * q.val; rw [e]; omega

theorem rowsum_arr (c : Dev nD) (p : Fin 8192) :
    ((dat0 (F := Ideal) V c).arrAt 1 cfg0.N : FVec Ideal S8192 .f32) (ix1 p) = ∑ j : Fin 8192, xarr V c (ix2 p j) :=
  congrFun ((dat0 (F := Ideal) V c).arrAt_eq_of_cover 1 (rowsums V c) (flushed1_eq V c) cover1) (ix1 p)

theorem colsum_arr (c : Dev nD) (q : Fin 8192) :
    ((dat0 (F := Ideal) V c).arrAt 2 cfg0.N : FVec Ideal S8192 .f32) (ix1 q) = ∑ i : Fin 8192, xarr V c (ix2 i q) :=
  congrFun ((dat0 (F := Ideal) V c).arrAt_eq_of_cover 2 (colsums V c) (flushed2_eq V c) cover2) (ix1 q)

end Cert.KernelIdeal.R0V

end
-- ==== Proof.LibDotFormats.lean ====
import Idealize.ShloMosaic.PureOps.Ideal.Laws
import Idealize.ShloMosaic.Lib.ValueIdx

noncomputable section

namespace Cert.LibDotFormats

open Idealize.ShloMosaic Idealize.ShloMosaic.ValueIdx
open scoped BigOperators

variable {sl sr so : Shape} {φ₁ φ₂ : FTy} {A K B : Nat}

/-- A product into the zero accumulator over one contracted axis of extent `K`, re-indexed by that axis' coordinate. -/
theorem matmul_zero_of_idx (d : DotDims sl sr so) (hr : d.contr.rank = 1) (hs : d.contr.size ⟨0, by omega⟩ = K)
    (prec : Option ContractPrecision) (lhs : FVec Ideal sl φ₁) (rhs : FVec Ideal sr φ₂) (j : so.Idx)
    (l : Fin K → sl.Idx) (r : Fin K → sr.Idx)
    (hl : ∀ k a, (d.lhsIdx j ((contrEquiv1 d K hr hs).symm k) a).val = (l k a).val)
    (hr' : ∀ k a, (d.rhsIdx j ((contrEquiv1 d K hr hs).symm k) a).val = (r k a).val) :
    FloatOps.matmul d prec lhs rhs (constant so .f32 0x00000000#32) j = ∑ k : Fin K, lhs (l k) * rhs (r k) := by
  rw [Ideal.matmul_constant_zero_apply, ← Equiv.sum_comp (contrEquiv1 d K hr hs).symm]
  exact Finset.sum_congr rfl fun k _ => by
    rw [funext fun a => Fin.ext (hl k a), funext fun a => Fin.ext (hr' k a)]

theorem matmul_cols_zero_apply (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (lhs : FVec Ideal ⟨2, ![A, K]⟩ φ₁) (rhs : FVec Ideal ⟨2, ![K, B]⟩ φ₂)
    (p : Fin A) (q : Fin B) :
    FloatOps.matmul d prec lhs rhs (constant ⟨2, ![A, B]⟩ .f32 0x00000000#32) (ix2 p q) = ∑ k : Fin K, lhs (ix2 p k) * rhs (ix2 k q) := by
  cases d
  subst hlc hrc hln hrn hlb hrb
  exact matmul_zero_of_idx (K := K) _ rfl rfl prec lhs rhs _ (ix2 p) (ix2 · q)
    (fun _ => Fin.forall_fin_two.2 ⟨rfl, rfl⟩) (fun _ => Fin.forall_fin_two.2 ⟨rfl, rfl⟩)

end Cert.LibDotFormats

end
-- ==== Proof.LibDotColsFormats.lean ====
import proofs.«146407_j60627758350707_1_alg».proof.Proof.LibDotFormats

noncomputable section

namespace Cert.LibDotColsFormats

open Idealize.ShloMosaic Idealize.ShloMosaic.ValueIdx
open scoped BigOperators

variable {φ₁ φ₂ : FTy} {K A B : Nat}

theorem matmul_zero_apply (d : DotDims ⟨2, ![K, A]⟩ ⟨2, ![K, B]⟩ ⟨2, ![A, B]⟩)
    (hlc : d.lhsContracting = [0]) (hrc : d.rhsContracting = [0]) (hln : d.lhsNonContracting = [1])
    (hrn : d.rhsNonContracting = [1]) (hlb : d.lhsBatch = []) (hrb : d.rhsBatch = [])
    (prec : Option ContractPrecision) (lhs : FVec Ideal ⟨2, ![K, A]⟩ φ₁) (rhs : FVec Ideal ⟨2, ![K, B]⟩ φ₂)
    (p : Fin A) (q : Fin B) :
    FloatOps.matmul d prec lhs rhs (constant ⟨2, ![A, B]⟩ .f32 0x00000000#32) (ix2 p q) = ∑ k : Fin K, lhs (ix2 k p) * rhs (ix2 k q) := by
  cases d
  subst hlc hrc hln hrn hlb hrb
  exact Cert.LibDotFormats.matmul_zero_of_idx (K := K) _ rfl rfl prec lhs rhs _ (ix2 · p) (ix2 · q)
    (fun _ => Fin.forall_fin_two.2 ⟨rfl, rfl⟩) (fun _ => Fin.forall_fin_two.2 ⟨rfl, rfl⟩)

end Cert.LibDotColsFormats

end
-- ==== Proof.LibColumn.lean ====
import Idealize.ShloMosaic.Lib.ValueIdx
import Idealize.ShloMosaic.Lib.Pipeline.Value

namespace Cert.LibColumn

open Idealize.ShloMosaic Idealize.ShloMosaic.ValueIdx

variable {α : Type} {a b : ℕ}

/-- An axis of extent one has only the coordinate zero. -/
theorem val_eq_ite (i : Fin a) : i.val = if a = 1 then 0 else i.val := by split <;> omega

theorem shapeCast_a_a1_apply (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    rw [Shape.rowMajor_val_two, Shape.rowMajor_val_one]
    show i.val = i.val * 1 + u.val
    omega)

theorem broadcastTo_a1_ab_apply (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) :=
  broadcastTo_apply v h (ix2 i j) (ix2 i (0 : Fin 1)) (Fin.forall_fin_two.2 ⟨val_eq_ite i, rfl⟩)

/-- An `[a]` vector laid down the columns of `[a, b]` through `[a, 1]` reads, at `(i, j)`, the vector at `i`. -/
theorem col_spread_apply (x : (⟨1, ![a]⟩ : Shape).Idx → α)
    (h1 : (⟨1, ![a]⟩ : Shape).BroadcastsInDim ⟨2, ![a, 1]⟩ (![0] : Fin 1 → Fin 2))
    (h2 : (⟨2, ![a, 1]⟩ : Shape).BroadcastsInDim ⟨2, ![a, b]⟩ (![0, 1] : Fin 2 → Fin 2)) (i : Fin a) (j : Fin b) :
    broadcastInDim ⟨2, ![a, b]⟩ ![0, 1] h2 (broadcastInDim ⟨2, ![a, 1]⟩ ![0] h1 x) (ix2 i j) = x (ix1 i) :=
  (broadcastInDim_apply _ h2 _ (ix2 i j) (ix2 i (0 : Fin 1)) (Fin.forall_fin_two.2 ⟨val_eq_ite i, rfl⟩)).trans
    (broadcastInDim_apply _ h1 x _ (ix1 i) (Fin.forall_fin_one.2 (val_eq_ite i)))

/-- A `[b]` vector laid along the rows of `[a, b]` through `[1, b]` reads, at `(i, j)`, the vector at `j`. -/
theorem row_spread_apply (x : (⟨1, ![b]⟩ : Shape).Idx → α)
    (h1 : (⟨1, ![b]⟩ : Shape).BroadcastsInDim ⟨2, ![1, b]⟩ (![1] : Fin 1 → Fin 2))
    (h2 : (⟨2, ![1, b]⟩ : Shape).BroadcastsInDim ⟨2, ![a, b]⟩ (![0, 1] : Fin 2 → Fin 2)) (i : Fin a) (j : Fin b) :
    broadcastInDim ⟨2, ![a, b]⟩ ![0, 1] h2 (broadcastInDim ⟨2, ![1, b]⟩ ![1] h1 x) (ix2 i j) = x (ix1 j) :=
  (broadcastInDim_apply _ h2 _ (ix2 i j) (ix2 (0 : Fin 1) j) (Fin.forall_fin_two.2 ⟨rfl, val_eq_ite j⟩)).trans
    (broadcastInDim_apply _ h1 x _ (ix1 j) (Fin.forall_fin_one.2 (val_eq_ite j)))

end Cert.LibColumn
-- ==== Proof.K1Pay.lean ====
import proofs.«146407_j60627758350707_1_alg».proof.Proof.Gen.KernelIdeal.Skeleton
import proofs.«146407_j60627758350707_1_alg».proof.Proof.LibDotFormats
import proofs.«146407_j60627758350707_1_alg».proof.Proof.LibDotColsFormats
import proofs.«146407_j60627758350707_1_alg».proof.Proof.LibColumn
import Idealize.ShloMosaic.Lib.ValueIdx
import Idealize.ShloMosaic.Lib.Pipeline.Value
import Idealize.ShloMosaic.PureOps.Ideal.Laws

noncomputable section

namespace Cert.KernelIdeal.R1P

open Cert.KernelIdeal Cert.KernelIdeal.Gen
open Idealize.ShloMosaic Idealize.ShloMosaic.ValueIdx
open scoped BigOperators

theorem k1_pay1_apply (p : Fin 1024) (f : Fin 512) : k1_pay1 (F := Ideal) (ix2 p f) = 0 := by
  unfold k1_pay1
  rw [shapeCast_self, broadcast_apply]
  exact Ideal.ofBits_zero_f32

theorem scaledBlock_apply (v7 : Vec Ideal S512 .f32) (v9 : Vec Ideal S512x512 .f32) (j f : Fin 512) :
    (mulf (broadcastTo S512x512 (shapeCast S512x1 v7 shapeCasts_S512_S512x1) broadcasts_S512x1_S512x512) v9
        : FVec Ideal S512x512 .f32) (ix2 j f) = v7 (ix1 j) * v9 (ix2 j f) := by
  rw [mulf_apply, Cert.LibColumn.broadcastTo_a1_ab_apply, Cert.LibColumn.shapeCast_a_a1_apply]

theorem k1_pay2_apply (v3 : Vec Ideal S1024x512 .f32) (v5 : Vec Ideal S512x1024 .f32) (v7 : Vec Ideal S512 .f32)
    (v9 : Vec Ideal S512x512 .f32) (v16 : Vec Ideal S1024x512 .f32) (p : Fin 1024) (f : Fin 512) :
    k1_pay2 (F := Ideal) v3 v5 v7 v9 v16 (ix2 p f)
      = v16 (ix2 p f) + Ideal.ofBits .f32 0x3F000000#32
          * ((∑ j : Fin 512, v3 (ix2 p j) * (v7 (ix1 j) * v9 (ix2 j f)))
            + ∑ j : Fin 512, v5 (ix2 j p) * (v7 (ix1 j) * v9 (ix2 j f))) := by
  unfold k1_pay2
  simp only [shapeCast_self, matmul]
  rw [addf_apply, mulf_apply, broadcast_apply, addf_apply,
    Cert.LibDotFormats.matmul_cols_zero_apply (A := 1024) (K := 512) (B := 512)
      dot_S1024x512_S512x512_S1024x512_1_0_0_1_n_n rfl rfl rfl rfl rfl rfl,
    Cert.LibDotColsFormats.matmul_zero_apply (K := 512) (A := 1024) (B := 512)
      dot_S512x1024_S512x512_S1024x512_0_0_1_1_n_n rfl rfl rfl rfl rfl rfl]
  simp only [truncf_apply, scaledBlock_apply]
  rfl

theorem lift_row (p : Fin 1024) (k : Fin 512) :
    reduces_S1024x512_S1024.lift (ix1 p) k = ix2 p k := by
  funext a
  apply Fin.ext
  match a with
  | ⟨0, _⟩ => rfl
  | ⟨1, _⟩ => rfl

theorem rowSum_apply (src : FVec Ideal S1024x512 .f32) (p : Fin 1024) :
    multiReduction (F := Ideal) .add [1] S1024 src 0x00000000#32 reduces_S1024x512_S1024 (.inl rfl) rfl (ix1 p)
      = ∑ f : Fin 512, src (ix2 p f) := by
  refine (Ideal.multiReduction_add_single src 0x00000000#32 reduces_S1024x512_S1024 (.inl rfl) rfl (ix1 p)).trans ?_
  exact Finset.sum_congr rfl fun k _ => congrArg src (lift_row p k)

theorem column_apply (v : Vec Ideal S1024 .f32) (p : Fin 1024) (f : Fin 512) :
    (broadcastTo S1024x512 (shapeCast S1024x1 v shapeCasts_S1024_S1024x1) broadcasts_S1024x1_S1024x512
        : FVec Ideal S1024x512 .f32) (ix2 p f) = v (ix1 p) := by
  rw [Cert.LibColumn.broadcastTo_a1_ab_apply, Cert.LibColumn.shapeCast_a_a1_apply]

theorem k1_pay3_apply (v27 v29 : Vec Ideal S1024 .f32) (v31 v35 : Vec Ideal S1024x512 .f32) (p : Fin 1024) :
    k1_pay3 (F := Ideal) v27 v29 v31 v35 (ix1 p)
      = ∑ f : Fin 512, v31 (ix2 p f) * (v27 (ix1 p) * ((v29 (ix1 p) * (v27 (ix1 p) * v31 (ix2 p f))) - v35 (ix2 p f))) := by
  unfold k1_pay3
  simp only [shapeCast_self]
  rw [rowSum_apply]
  refine Finset.sum_congr rfl fun f _ => ?_
  simp only [mulf_apply, subf_apply, column_apply]

end Cert.KernelIdeal.R1P

end
-- ==== Proof.Spec.lean ====
import Mathlib.Data.Real.Basic
import Mathlib.Algebra.BigOperators.Fin
import Mathlib.Data.Fintype.BigOperators

noncomputable section

namespace Cert.Spec

open scoped BigOperators

/-- Column `512·k + j`: the `j`-th of the `k`-th of 16 blocks of 512 columns. -/
def blk16 (k : Fin 16) (j : Fin 512) : Fin 8192 := ⟨512 * k.val + j.val, by omega⟩

variable (ρ : ℝ → ℝ) (A : Fin 8192 → Fin 8192 → ℝ) (X : Fin 8192 → Fin 512 → ℝ)

def rowSum (i : Fin 8192) : ℝ := ∑ j : Fin 8192, A i j
def colSum (j : Fin 8192) : ℝ := ∑ i : Fin 8192, A i j
def degK (i : Fin 8192) : ℝ := (1 / 2) * (rowSum A i + colSum A i)
def accK (i : Fin 8192) (f : Fin 512) : ℝ :=
  ∑ k : Fin 16, (1 / 2) *
    ((∑ j : Fin 512, A i (blk16 k j) * (ρ (degK A (blk16 k j)) * X (blk16 k j) f))
      + ∑ j : Fin 512, A (blk16 k j) i * (ρ (degK A (blk16 k j)) * X (blk16 k j) f))
def rowLoss (i : Fin 8192) : ℝ :=
  ∑ f : Fin 512, X i f * (ρ (degK A i) * (degK A i * (ρ (degK A i) * X i f) - accK ρ A X i f))
/-- The kernel's result: degrees from row and column sums, products block by block. -/
def kerR : ℝ := ∑ i : Fin 8192, rowLoss ρ A X i

def sym (i j : Fin 8192) : ℝ := (A j i + A i j) * (1 / 2)
def degR (i : Fin 8192) : ℝ := ∑ j : Fin 8192, sym A i j
def lap (i j : Fin 8192) : ℝ := (if i = j then degR A i else 0) - sym A i j
/-- The reference's result: the Laplacian of the symmetrised array, scaled on both sides. -/
def refR : ℝ :=
  ∑ i : Fin 8192, ∑ f : Fin 512, X i f * ∑ j : Fin 8192, ((ρ (degR A i) * lap A i j) * ρ (degR A j)) * X j f

end Cert.Spec

end
-- ==== Proof.K1Value.lean ====
import proofs.«146407_j60627758350707_1_alg».proof.Proof.K1Frame
import proofs.«146407_j60627758350707_1_alg».proof.Proof.K1Pay
import proofs.«146407_j60627758350707_1_alg».proof.Proof.Spec
import Idealize.ShloMosaic.Lib.Pipeline.Value
import Idealize.ShloMosaic.Lib.ValueIdx

noncomputable section

namespace Cert.KernelIdeal.R1V

open Cert.KernelIdeal Cert.KernelIdeal.Gen Cert.KernelIdeal.R1
open Idealize.ShloMosaic Idealize.ShloMosaic.TcCoe Idealize.SL.Sem
open Idealize.ShloMosaic.Pipeline (Dat)
open Idealize.ShloMosaic.ValueIdx
open scoped BigOperators

section Blocks

variable {F : FTy → Type} [FloatOps F]
variable (V : (c : Dev nD) → (b : Ref sig .tc) → Buf (Elt F) ((c : Thread nD τ).loc b))

theorem idx_facts : ∀ t : Fin cfg1.N,
    (win1_0.index t 0 = t.val / 16 ∧ win1_0.index t 1 = t.val % 16)
    ∧ (win1_1.index t 0 = t.val % 16 ∧ win1_1.index t 1 = t.val / 16)
    ∧ (win1_2.index t 0 = t.val / 16 ∧ win1_2.index t 1 = 0)
    ∧ (win1_3.index t 0 = t.val % 16 ∧ win1_3.index t 1 = 0)
    ∧ win1_4.index t 0 = t.val / 16
    ∧ win1_5.index t 0 = t.val % 16
    ∧ win1_6.index t 0 = t.val / 16
    ∧ win1_7.index t 0 = t.val / 16 := by decide +kernel

theorem iblk_0_apply (c : Dev nD) (t : Fin cfg1.N) (x : S1024x512.Idx) (k : S8192x8192.Idx)
    (hk0 : (k 0).val = 1024 * (t.val / 16) + (x 0).val) (hk1 : (k 1).val = 512 * (t.val % 16) + (x 1).val) :
    (iblk1 V c 0 t : Vec F S1024x512 .f32) x = (V c main_arg0 : S8192x8192.Idx → Elt F .f32) k := by
  have hi := (idx_facts t).1
  unfold iblk1
  rw [View.read_apply]
  show V c main_arg0 _ = V c main_arg0 _
  congr 1
  funext a
  apply Fin.ext
  match a with
  | ⟨0, _⟩ => show win1_0.index t 0 * 1024 + 1 * (x 0).val = (k 0).val; rw [hi.1, hk0]; omega
  | ⟨1, _⟩ => show win1_0.index t 1 * 512 + 1 * (x 1).val = (k 1).val; rw [hi.2, hk1]; omega

theorem iblk_1_apply (c : Dev nD) (t : Fin cfg1.N) (x : S512x1024.Idx) (k : S8192x8192.Idx)
    (hk0 : (k 0).val = 512 * (t.val % 16) + (x 0).val) (hk1 : (k 1).val = 1024 * (t.val / 16) + (x 1).val) :
    (iblk1 V c 1 t : Vec F S512x1024 .f32) x = (V c main_arg0 : S8192x8192.Idx → Elt F .f32) k := by
  have hi := (idx_facts t).2.1
  unfold iblk1
  rw [View.read_apply]
  show V c main_arg0 _ = V c main_arg0 _
  congr 1
  funext a
  apply Fin.ext
  match a with
  | ⟨0, _⟩ => show win1_1.index t 0 * 512 + 1 * (x 0).val = (k 0).val; rw [hi.1, hk0]; omega
  | ⟨1, _⟩ => show win1_1.index t 1 * 1024 + 1 * (x 1).val = (k 1).val; rw [hi.2, hk1]; omega

theorem iblk_2_apply (c : Dev nD) (t : Fin cfg1.N) (x : S1024x512.Idx) (k : S8192x512.Idx)
    (hk0 : (k 0).val = 1024 * (t.val / 16) + (x 0).val) (hk1 : (k 1).val = (x 1).val) :
    (iblk1 V c 2 t : Vec F S1024x512 .f32) x = (V c main_arg1 : S8192x512.Idx → Elt F .f32) k := by
  have hi := (idx_facts t).2.2.1
  unfold iblk1
  rw [View.read_apply]
  show V c main_arg1 _ = V c main_arg1 _
  congr 1
  funext a
  apply Fin.ext
  match a with
  | ⟨0, _⟩ => show win1_2.index t 0 * 1024 + 1 * (x 0).val = (k 0).val; rw [hi.1, hk0]; omega
  | ⟨1, _⟩ => show win1_2.index t 1 * 512 + 1 * (x 1).val = (k 1).val; rw [hi.2, hk1]; omega

theorem iblk_3_apply (c : Dev nD) (t : Fin cfg1.N) (x : S512x512.Idx) (k : S8192x512.Idx)
    (hk0 : (k 0).val = 512 * (t.val % 16) + (x 0).val) (hk1 : (k 1).val = (x 1).val) :
    (iblk1 V c 3 t : Vec F S512x512 .f32) x = (V c main_arg1 : S8192x512.Idx → Elt F .f32) k := by
  have hi := (idx_facts t).2.2.2.1
  unfold iblk1
  rw [View.read_apply]
  show V c main_arg1 _ = V c main_arg1 _
  congr 1
  funext a
  apply Fin.ext
  match a with
  | ⟨0, _⟩ => show win1_3.index t 0 * 512 + 1 * (x 0).val = (k 0).val; rw [hi.1, hk0]; omega
  | ⟨1, _⟩ => show win1_3.index t 1 * 512 + 1 * (x 1).val = (k 1).val; rw [hi.2, hk1]; omega

theorem iblk_4_apply (c : Dev nD) (t : Fin cfg1.N) (x : S1024.Idx) (k : S8192.Idx)
    (hk0 : (k 0).val = 1024 * (t.val / 16) + (x 0).val) :
    (iblk1 V c 4 t : Vec F S1024 .f32) x = (V c main_v9 : S8192.Idx → Elt F .f32) k := by
  have hi := (idx_facts t).2.2.2.2.1
  unfold iblk1
  rw [View.read_apply]
  show V c main_v9 _ = V c main_v9 _
  congr 1
  funext a
  apply Fin.ext
  match a with
  | ⟨0, _⟩ => show win1_4.index t 0 * 1024 + 1 * (x 0).val = (k 0).val; rw [hi, hk0]; omega

theorem iblk_5_apply (c : Dev nD) (t : Fin cfg1.N) (x : S512.Idx) (k : S8192.Idx)
    (hk0 : (k 0).val = 512 * (t.val % 16) + (x 0).val) :
    (iblk1 V c 5 t : Vec F S512 .f32) x = (V c main_v9 : S8192.Idx → Elt F .f32) k := by
  have hi := (idx_facts t).2.2.2.2.2.1
  unfold iblk1
  rw [View.read_apply]
  show V c main_v9 _ = V c main_v9 _
  congr 1
  funext a
  apply Fin.ext
  match a with
  | ⟨0, _⟩ => show win1_5.index t 0 * 512 + 1 * (x 0).val = (k 0).val; rw [hi, hk0]; omega

theorem iblk_6_apply (c : Dev nD) (t : Fin cfg1.N) (x : S1024.Idx) (k : S8192.Idx)
    (hk0 : (k 0).val = 1024 * (t.val / 16) + (x 0).val) :
    (iblk1 V c 6 t : Vec F S1024 .f32) x = (V c main_v3 : S8192.Idx → Elt F .f32) k := by
  have hi := (idx_facts t).2.2.2.2.2.2.1
  unfold iblk1
  rw [View.read_apply]
  show V c main_v3 _ = V c main_v3 _
  congr 1
  funext a
  apply Fin.ext
  match a with
  | ⟨0, _⟩ => show win1_6.index t 0 * 1024 + 1 * (x 0).val = (k 0).val; rw [hi, hk0]; omega

end Blocks

section IdealValues

variable (W : (c : Dev nD) → (b : Ref sig .tc) → Buf (Elt Ideal) ((c : Thread nD τ).loc b))

abbrev aArr (c : Dev nD) : FVec Ideal S8192x8192 .f32 := W c main_arg0
abbrev xArr (c : Dev nD) : FVec Ideal S8192x512 .f32 := W c main_arg1
abbrev rArr (c : Dev nD) : FVec Ideal S8192 .f32 := W c main_v9
abbrev dArr (c : Dev nD) : FVec Ideal S8192 .f32 := W c main_v3

abbrev half : EReal := Ideal.ofBits .f32 0x3F000000#32

abbrev lrow (p : Fin 8192) : Fin 1024 := ⟨p.val % 1024, Nat.mod_lt _ (by decide)⟩

def contrib (c : Dev nD) (p : Fin 8192) (f : Fin 512) (k : Fin 16) : EReal :=
  half * ((∑ j : Fin 512, aArr W c (ix2 p (Cert.Spec.blk16 k j)) * (rArr W c (ix1 (Cert.Spec.blk16 k j)) * xArr W c (ix2 (Cert.Spec.blk16 k j) f)))
    + ∑ j : Fin 512, aArr W c (ix2 (Cert.Spec.blk16 k j) p) * (rArr W c (ix1 (Cert.Spec.blk16 k j)) * xArr W c (ix2 (Cert.Spec.blk16 k j) f)))

def term (c : Dev nD) (p : Fin 8192) (f : Fin 512) (k : ℕ) : EReal :=
  if h : k < 16 then contrib W c p f ⟨k, h⟩ else 0

theorem step_apply (c : Dev nD) (t : Fin cfg1.N) (p : Fin 8192) (hp : p.val / 1024 = t.val / 16) (f : Fin 512)
    (xs : Vec Ideal S1024x512 .f32) :
    k1_pay2 (F := Ideal) (iblk1 W c 0 t) (iblk1 W c 1 t) (iblk1 W c 5 t) (iblk1 W c 3 t) xs (ix2 (lrow p) f)
      = xs (ix2 (lrow p) f) + term W c p f (t.val % 16) := by
  have hk : t.val % 16 < 16 := Nat.mod_lt _ (by decide)
  have e : p.val = 1024 * (t.val / 16) + p.val % 1024 := by have := p.isLt; omega
  refine (Cert.KernelIdeal.R1P.k1_pay2_apply (iblk1 W c 0 t) (iblk1 W c 1 t) (iblk1 W c 5 t) (iblk1 W c 3 t) xs (lrow p) f).trans ?_
  unfold term
  rw [dif_pos hk]; unfold contrib
  refine congrArg (fun z => xs (ix2 (lrow p) f) + half * z) ?_
  refine congrArg₂ (· + ·) (Finset.sum_congr rfl fun j _ => ?_) (Finset.sum_congr rfl fun j _ => ?_)
  · refine congrArg₂ (· * ·) (iblk_0_apply W c t (ix2 (lrow p) j) (ix2 p (Cert.Spec.blk16 ⟨t.val % 16, hk⟩ j)) ?_ ?_)
      (congrArg₂ (· * ·) (iblk_5_apply W c t (ix1 j) (ix1 (Cert.Spec.blk16 ⟨t.val % 16, hk⟩ j)) ?_)
        (iblk_3_apply W c t (ix2 j f) (ix2 (Cert.Spec.blk16 ⟨t.val % 16, hk⟩ j) f) ?_ ?_))
    · exact e
    · rfl
    · rfl
    · rfl
    · rfl
  · refine congrArg₂ (· * ·) (iblk_1_apply W c t (ix2 j (lrow p)) (ix2 (Cert.Spec.blk16 ⟨t.val % 16, hk⟩ j) p) ?_ ?_)
      (congrArg₂ (· * ·) (iblk_5_apply W c t (ix1 j) (ix1 (Cert.Spec.blk16 ⟨t.val % 16, hk⟩ j)) ?_)
        (iblk_3_apply W c t (ix2 j f) (ix2 (Cert.Spec.blk16 ⟨t.val % 16, hk⟩ j) f) ?_ ?_))
    · rfl
    · exact e
    · rfl
    · rfl
    · rfl

end IdealValues

section Fold

variable (W : (c : Dev nD) → (b : Ref sig .tc) → Buf (Elt Ideal) ((c : Thread nD τ).loc b))

-- By induction on the point: within a block of rows the accumulator is the sum of the column blocks' contributions so far.
theorem acc_eq (c : Dev nD) : ∀ (n : ℕ) (hn : n < cfg1.N) (p : Fin 8192) (hp : p.val / 1024 = n / 16) (f : Fin 512),
    acc1 W c n hn (ix2 (lrow p) f) = ∑ k ∈ Finset.range (n % 16 + 1), term W c p f k := by
  intro n
  induction n using Nat.strong_induction_on with
  | _ n ih =>
    intro hn p hp f
    refine (congrFun (acc1_eq W c ⟨n, hn⟩) (ix2 (lrow p) f)).trans ((step_apply W c ⟨n, hn⟩ p hp f _).trans ?_)
    show _ + term W c p f (n % 16) = _
    by_cases h0 : n % 16 = 0
    · rw [if_pos h0, Cert.KernelIdeal.R1P.k1_pay1_apply, zero_add, h0, Finset.sum_range_one]
    · rw [if_neg h0, ih (n - 1) (by omega) (Nat.lt_of_le_of_lt (Nat.sub_le _ _) hn) p (by omega) f,
        show n % 16 = (n - 1) % 16 + 1 by omega, Finset.sum_range_succ _ ((n - 1) % 16 + 1)]

theorem sum_terms (c : Dev nD) (p : Fin 8192) (f : Fin 512) :
    ∑ k ∈ Finset.range 16, term W c p f k = ∑ k : Fin 16, contrib W c p f k := by
  rw [Finset.sum_range]
  refine Finset.sum_congr rfl fun k _ => ?_
  unfold term
  rw [dif_pos k.isLt]

def lossRow (c : Dev nD) (p : Fin 8192) : EReal :=
  ∑ f : Fin 512, xArr W c (ix2 p f) * (rArr W c (ix1 p) * ((dArr W c (ix1 p) * (rArr W c (ix1 p) * xArr W c (ix2 p f))) - ∑ k : Fin 16, contrib W c p f k))

def lossFn (c : Dev nD) : Buf (Elt Ideal) ((c : Thread nD τ).loc main_v10) := fun i => lossRow W c (i 0)

theorem out_row (c : Dev nD) (t : Fin cfg1.N) (h1 : t.val % 16 = 15) (p : Fin 8192) (hp : p.val / 1024 = t.val / 16) :
    k1_pay3 (F := Ideal) (iblk1 W c 4 t) (iblk1 W c 6 t) (iblk1 W c 2 t) (acc1 W c t.val t.isLt) (ix1 (lrow p)) = lossRow W c p := by
  have hpv := p.isLt
  have e : p.val = 1024 * (t.val / 16) + p.val % 1024 := by omega
  refine (Cert.KernelIdeal.R1P.k1_pay3_apply (iblk1 W c 4 t) (iblk1 W c 6 t) (iblk1 W c 2 t) (acc1 W c t.val t.isLt) (lrow p)).trans ?_
  unfold lossRow
  refine Finset.sum_congr rfl fun f _ => ?_
  rw [iblk_2_apply W c t (ix2 (lrow p) f) (ix2 p f) e rfl, iblk_4_apply W c t (ix1 (lrow p)) (ix1 p) e,
    iblk_6_apply W c t (ix1 (lrow p)) (ix1 p) e, acc_eq W c t.val t.isLt p hp f, h1, sum_terms]

end Fold

section Final

variable (W : (c : Dev nD) → (b : Ref sig .tc) → Buf (Elt Ideal) ((c : Thread nD τ).loc b))

theorem out_idx (c : Dev nD) (t : Fin cfg1.N) (h1 : t.val % 16 = 15) (y : S1024.Idx) (i : S8192.Idx)
    (hi : (i 0).val = 1024 * (t.val / 16) + (y 0).val) :
    k1_pay3 (F := Ideal) (iblk1 W c 4 t) (iblk1 W c 6 t) (iblk1 W c 2 t) (acc1 W c t.val t.isLt) y = lossFn W c i := by
  have hy0 : (y 0).val < 1024 := (y 0).isLt
  have hp : (i 0).val / 1024 = t.val / 16 := by omega
  have hy : y = ix1 (lrow (i 0)) := by
    funext a
    match a with
    | ⟨0, _⟩ => exact Fin.ext (by show (y 0).val = (i 0).val % 1024; omega)
  rw [hy]
  exact out_row W c t h1 (i 0) hp

theorem flushed_eq (c : Dev nD) (t : Fin cfg1.N) (hf : (cfg1.win 7).flush t = true) :
    (dat1 (F := Ideal) W c).flushed 7 t = ((cfg1.win 7).blk t).view.read (Elt Ideal) (lossFn W c) := by
  have h1 : t.val % 16 = 15 := (flush1_7 t).mp hf
  show (cfg1.win 7).cut (grid1.coords t) ((dat1 (F := Ideal) W c).after 7 t) = _
  funext j
  rw [View.read_apply]
  refine out_idx W c t h1 j _ ?_
  show win1_7.index t 0 * 1024 + 1 * (j 0).val = 1024 * (t.val / 16) + (j 0).val
  rw [(idx_facts t).2.2.2.2.2.2.2]
  omega

theorem mem_blk7 (t : Fin cfg1.N) (i : S8192.Idx) :
    i ∈ ((cfg1.win 7).blk t).view.set ↔ ∀ a : Fin 1, win1_7.index t a * S1024.size a ≤ (i a).val ∧ (i a).val < win1_7.index t a * S1024.size a + S1024.size a := by
  show i ∈ ((View.whole main_v10).slice (win1_7.rect t)).set ↔ _
  rw [View.set_slice_whole, Rect.mem_set_unit]
  exact Iff.rfl

theorem cover7 (i : S8192.Idx) : ∃ t : Fin cfg1.N, (cfg1.win 7).flush t = true ∧ i ∈ ((cfg1.win 7).blk t).view.set := by
  have hi : (i 0).val < 8192 := (i 0).isLt
  have hN : cfg1.N = 128 := N_1
  refine ⟨⟨16 * ((i 0).val / 1024) + 15, by rw [hN]; omega⟩, (flush1_7 _).mpr (by show (16 * ((i 0).val / 1024) + 15) % 16 = 15; omega), ?_⟩
  rw [mem_blk7]
  intro a
  match a with
  | ⟨0, _⟩ =>
    show win1_7.index _ 0 * 1024 ≤ (i 0).val ∧ (i 0).val < win1_7.index _ 0 * 1024 + 1024
    rw [(idx_facts _).2.2.2.2.2.2.2]
    show (16 * ((i 0).val / 1024) + 15) / 16 * 1024 ≤ (i 0).val ∧ (i 0).val < (16 * ((i 0).val / 1024) + 15) / 16 * 1024 + 1024
    omega

theorem final7 (c : Dev nD) : (dat1 (F := Ideal) W c).arrAt 7 cfg1.N = lossFn W c :=
  (dat1 (F := Ideal) W c).arrAt_eq_of_cover 7 (lossFn W c) (fun t hf => flushed_eq W c t hf) cover7

abbrev outArr (c : Dev nD) : FVec Ideal S8192 .f32 := (dat1 (F := Ideal) W c).arrAt 7 cfg1.N

theorem loss_arr (c : Dev nD) (p : Fin 8192) :
    outArr W c (ix1 p)
      = ∑ f : Fin 512, xArr W c (ix2 p f) * (rArr W c (ix1 p) * ((dArr W c (ix1 p) * (rArr W c (ix1 p) * xArr W c (ix2 p f)))
          - ∑ k : Fin 16, half * ((∑ j : Fin 512, aArr W c (ix2 p (Cert.Spec.blk16 k j)) * (rArr W c (ix1 (Cert.Spec.blk16 k j)) * xArr W c (ix2 (Cert.Spec.blk16 k j) f)))
              + ∑ j : Fin 512, aArr W c (ix2 (Cert.Spec.blk16 k j) p) * (rArr W c (ix1 (Cert.Spec.blk16 k j)) * xArr W c (ix2 (Cert.Spec.blk16 k j) f))))) := by
  show (dat1 (F := Ideal) W c).arrAt 7 cfg1.N (ix1 p) = _
  rw [final7 W c]
  rfl

end Final

end Cert.KernelIdeal.R1V

end
-- ==== Proof.Norm.lean ====
import Idealize.ShloMosaic.PureOps.Ideal
import Idealize.ShloMosaic.Lib.ValueIdx
import Mathlib.Data.EReal.Basic

noncomputable section

namespace Cert.Norm

open Idealize.ShloMosaic

def powE (d : EReal) : EReal :=
  Ideal.pow (d + Ideal.ofBits .f32 0x3727C5AC#32) (Ideal.ofBits .f32 0xBF000000#32)

def normE (d : EReal) : EReal :=
  Scalar.select (Ideal.cmp .oeq (max (powE d) (-(powE d))) (Ideal.ofBits .f32 0x7F800000#32))
    (Ideal.ofBits .f32 0x00000000#32) (powE d)

def rho (d : ℝ) : ℝ := (powE (d : EReal)).toReal

theorem ofBits_inf : Ideal.ofBits .f32 0x7F800000#32 = (⊤ : EReal) := by
  simp [Ideal.ofBits, Ideal.ieee]

/-- A real power of a real base is a real number, so the infinity test fails and nothing is replaced. -/
theorem normE_coe (d : ℝ) : normE (d : EReal) = ((rho d : ℝ) : EReal) := by
  obtain ⟨e, he⟩ : ∃ e : ℝ, Ideal.ofBits .f32 0x3727C5AC#32 = (e : EReal) := by
    simp [Ideal.ofBits, Ideal.ieee, -EReal.coe_mul]
  obtain ⟨c, hc⟩ : ∃ c : ℝ, Ideal.ofBits .f32 0xBF000000#32 = (c : EReal) := by
    simp [Ideal.ofBits, Ideal.ieee, -EReal.coe_mul]
    exact ⟨_, (EReal.coe_neg _).symm⟩
  obtain ⟨r, hr⟩ : ∃ r : ℝ, powE (d : EReal) = (r : EReal) :=
    ⟨Real.rpow (d + e) c, by unfold powE; rw [he, hc, ← EReal.coe_add]; rfl⟩
  have ht : Ideal.cmp .oeq (max (r : EReal) (-(r : EReal))) ⊤ = 0#1 := by
    rw [← EReal.coe_neg]
    rcases max_choice (r : EReal) ((-r : ℝ) : EReal) with h | h <;> rw [h] <;> simp [Ideal.cmp]
  unfold normE rho
  rw [hr, EReal.toReal_coe, ofBits_inf, ht, ValueIdx.select_zero]

end Cert.Norm

end
-- ==== Proof.LibIdealReal.lean ====
import Idealize.ShloMosaic.PureOps.Ideal.Laws
import Mathlib.Data.EReal.Operations
import Mathlib.Algebra.BigOperators.Group.Finset.Basic

noncomputable section

namespace Cert.LibIdealReal

open Idealize.ShloMosaic
open scoped BigOperators

theorem ofBits_half : Ideal.ofBits .f32 0x3F000000#32 = ((1 / 2 : ℝ) : EReal) := by
  simp [Ideal.ofBits, Ideal.ieee, -EReal.coe_mul]; norm_num

theorem sum_coe {ι : Type*} (s : Finset ι) (f : ι → ℝ) : ∑ i ∈ s, ((f i : ℝ) : EReal) = ((∑ i ∈ s, f i : ℝ) : EReal) :=
  (map_sum (⟨⟨(↑), EReal.coe_zero⟩, EReal.coe_add⟩ : ℝ →+ EReal) f s).symm

theorem sum_of_eq {ι : Type*} (s : Finset ι) (g : ι → EReal) (f : ι → ℝ) (hg : ∀ i ∈ s, g i = ((f i : ℝ) : EReal)) :
    ∑ i ∈ s, g i = ((∑ i ∈ s, f i : ℝ) : EReal) := by
  rw [Finset.sum_congr rfl hg, sum_coe]

end Cert.LibIdealReal

end
-- ==== Proof.KHost.lean ====
import proofs.«146407_j60627758350707_1_alg».proof.Proof.Gen.KernelIdeal.Regions
import proofs.«146407_j60627758350707_1_alg».proof.Proof.Spec
import proofs.«146407_j60627758350707_1_alg».proof.Proof.Norm
import proofs.«146407_j60627758350707_1_alg».proof.Proof.LibIdealReal
import Idealize.ShloMosaic.Lib.StableHlo.Run
import Idealize.ShloMosaic.Lib.ValueIdxRank1
import Idealize.ShloMosaic.Lib.IdealHost

noncomputable section

namespace Cert.KernelIdeal.HostV

open Idealize.ShloMosaic Idealize.ShloMosaic.TcCoe Idealize.ShloMosaic.ValueIdx
open Cert.KernelIdeal Cert.KernelIdeal.Gen Cert.LibIdealReal Cert.Spec
open scoped BigOperators

variable (m : (ℓ : Loc nD τ sig) → Buf (Elt Ideal) ℓ) (outs : Gen.Outs (F := Ideal)) (c : Dev nD)

theorem V1_v0_0 : V1 m outs c main_v0_0 = outs 1 main_v0_0 c :=
  (Function.update_of_ne (by decide) ..).trans (Function.update_self ..)
theorem V1_v0_1 : V1 m outs c main_v0_1 = outs 1 main_v0_1 c := Function.update_self ..
theorem V6_v10 : V6 m outs c main_v10 = outs 6 main_v10 c := Function.update_self ..

abbrev bc (b : BitVec 32) : FVec Ideal S8192 .f32 :=
  broadcastInDim S8192 ![] bcast_S_S8192 (constant (F := Ideal) S_ .f32 b)

abbrev halfSumV (d0 d1 : FVec Ideal S8192 .f32) : FVec Ideal S8192 .f32 := mulf (bc 0x3F000000#32) (addf d0 d1)

abbrev powV (d : FVec Ideal S8192 .f32) : FVec Ideal S8192 .f32 :=
  Host.powf (addf d (bc 0x3727C5AC#32)) (bc 0xBF000000#32)

abbrev normV (d : FVec Ideal S8192 .f32) : FVec Ideal S8192 .f32 :=
  select (cmpf .oeq (Host.absf (powV d)) (bc 0x7F800000#32))
    (broadcastInDim S8192 ![] bcast_S_S8192 (id (constant (F := Ideal) S_ .f32 0x00000000#32))) (powV d)

/-- What no operation before region 1 writes is as launched. -/
theorem V5_launch (r : Ref sig .tc) (h1 : r ∉ ([main_v0_0, main_v0_1] : List (Ref sig .tc))) (h2 : r ∉ hostOps1_W)
    (h3 : r ∉ hostOps1_1_W) (h4 : r ∉ hostOps1_2_W) (h5 : r ∉ hostOps1_3_W) :
    V5 m outs c r = m ((c.tc : Thread nD τ).loc r) :=
  (V5_of m outs c r h5).trans <| (V4_of m outs c r h4).trans <| (V3_of m outs c r h3).trans <|
    (V2_of m outs c r h2).trans <| (V1_of m outs c r h1).trans rfl

abbrev aV : FVec Ideal S8192x8192 .f32 := V5 m outs c main_arg0
abbrev xV : FVec Ideal S8192x512 .f32 := V5 m outs c main_arg1
abbrev rV : FVec Ideal S8192 .f32 := V5 m outs c main_v9
abbrev dV : FVec Ideal S8192 .f32 := V5 m outs c main_v3
abbrev a0 : FVec Ideal S8192x8192 .f32 := m ((c.tc : Thread nD τ).loc main_arg0)
abbrev x0 : FVec Ideal S8192x512 .f32 := m ((c.tc : Thread nD τ).loc main_arg1)

/-- The degrees are half the sum of the two arrays region 0 leaves. -/
theorem dV_eq : dV m outs c = halfSumV (V1 m outs c main_v0_0) (V1 m outs c main_v0_1) := by
  unfold dV V5 V4 V3 V2
  after_results

/-- The normalised degrees are the normalisation of that half sum. -/
theorem rV_eq : rV m outs c = normV (halfSumV (V1 m outs c main_v0_0) (V1 m outs c main_v0_1)) := by
  unfold rV V5 V4 V3 V2
  after_results
  simp only [StableHlo.TRef.ofBuf, StableHlo.TRef.toBuf, cast_eq]

theorem V7_v11 : (V7 m outs c main_v11 : FVec Ideal S_ .f32) =
    Host.reduceAdd (V6 m outs c main_v10 : FVec Ideal S8192 .f32) (constant (F := Ideal) S_ .f32 0x00000000#32)
      reducesTo_S8192_S_d0 h_S_ := by
  unfold V7
  after_results

theorem bc_apply (b : BitVec 32) (j : S8192.Idx) : bc b j = Ideal.ofBits .f32 b := by
  rw [bc, broadcastInDim_scalar_apply, constant_apply]

variable (A : Fin 8192 → Fin 8192 → ℝ) (X : Fin 8192 → Fin 512 → ℝ)

theorem kernel_value
    (ha : ∀ i j, a0 m c (ix2 i j) = ((A i j : ℝ) : EReal))
    (hx : ∀ i f, x0 m c (ix2 i f) = ((X i f : ℝ) : EReal))
    (h00 : ∀ p : Fin 8192, (outs 1 main_v0_0 c : FVec Ideal S8192 .f32) (ix1 p)
      = ∑ j : Fin 8192, a0 m c (ix2 p j))
    (h01 : ∀ q : Fin 8192, (outs 1 main_v0_1 c : FVec Ideal S8192 .f32) (ix1 q)
      = ∑ i : Fin 8192, a0 m c (ix2 i q))
    (h10 : ∀ p : Fin 8192, (outs 6 main_v10 c : FVec Ideal S8192 .f32) (ix1 p)
      = ∑ f : Fin 512, xV m outs c (ix2 p f) * (rV m outs c (ix1 p) * ((dV m outs c (ix1 p) * (rV m outs c (ix1 p) * xV m outs c (ix2 p f)))
          - ∑ k : Fin 16, Ideal.ofBits .f32 0x3F000000#32 *
              ((∑ j : Fin 512, aV m outs c (ix2 p (Cert.Spec.blk16 k j))
                  * (rV m outs c (ix1 (Cert.Spec.blk16 k j)) * xV m outs c (ix2 (Cert.Spec.blk16 k j) f)))
                + ∑ j : Fin 512, aV m outs c (ix2 (Cert.Spec.blk16 k j) p)
                  * (rV m outs c (ix1 (Cert.Spec.blk16 k j)) * xV m outs c (ix2 (Cert.Spec.blk16 k j) f)))))) :
    (V7 m outs c main_v11 : FVec Ideal S_ .f32) = fun _ => ((Cert.Spec.kerR Cert.Norm.rho A X : ℝ) : EReal) := by
  have ha5 : ∀ i j, aV m outs c (ix2 i j) = ((A i j : ℝ) : EReal) := fun i j =>
    (congrFun (V5_launch m outs c main_arg0 (by decide) (by decide) (by decide) (by decide) (by decide)) _).trans (ha i j)
  have hx5 : ∀ i f, xV m outs c (ix2 i f) = ((X i f : ℝ) : EReal) := fun i f =>
    (congrFun (V5_launch m outs c main_arg1 (by decide) (by decide) (by decide) (by decide) (by decide)) _).trans (hx i f)
  have hd : ∀ p : Fin 8192, dV m outs c (ix1 p) = ((degK A p : ℝ) : EReal) := fun p => by
    rw [dV_eq, halfSumV, mulf_apply, addf_apply, bc_apply, V1_v0_0, V1_v0_1, h00, h01, ofBits_half, sum_of_eq _ _ _ fun j _ => ha p j,
      sum_of_eq _ _ _ fun i _ => ha i p, ← EReal.coe_add, ← EReal.coe_mul]
    rfl
  have hr : ∀ p : Fin 8192, rV m outs c (ix1 p) = ((Cert.Norm.rho (degK A p) : ℝ) : EReal) := fun p => by
    rw [rV_eq, ← dV_eq]
    exact (congrArg Cert.Norm.normE (hd p)).trans (Cert.Norm.normE_coe _)
  funext j
  rw [← V6_v10 m outs c] at h10
  refine (congrFun (V7_v11 m outs c) j).trans ?_
  rw [hostReduceAdd_apply, Ideal.hostReduceAdd_total reducesTo_S8192_S_d0 (fun b => b.elim0), constant_apply,
    Ideal.ofBits_zero_f32, zero_add, ← Equiv.sum_comp (idxEquiv1 (n := 8192)).symm]
  refine sum_of_eq _ _ _ fun p _ => (h10 p).trans ?_
  simp only [ha5, hx5, hd, hr, ofBits_half, ← EReal.coe_mul, ← EReal.coe_add, ← EReal.coe_sub, sum_coe]
  rfl

end Cert.KernelIdeal.HostV

end
-- ==== Proof.RefTerm.lean ====
import proofs.«146407_j60627758350707_1_alg».proof.ReferenceIdeal

noncomputable section

namespace Cert.ReferenceIdeal.RefTerm

open Cert.ReferenceIdeal Idealize.ShloMosaic Idealize.ShloMosaic.TcCoe
open Facts₀ Facts

variable {F : FTy → Type} [FloatOps F] [Facts]

def symA (a : FVec F S8192x8192 .f32) : FVec F S8192x8192 .f32 :=
  mulf (addf (transpose S8192x8192 [1, 0] a transposes_S8192x8192_S8192x8192_1_0) a)
    (broadcastInDim S8192x8192 ![] bcast_S_S8192x8192 (constant S_ .f32 0x3F000000#32))

def deg (a : FVec F S8192x8192 .f32) : FVec F S8192 .f32 :=
  Host.reduceAdd (symA a) (constant S_ .f32 0x00000000#32) reducesTo_S8192x8192_S8192_d1 h_S_

def diagM (d : FVec F S8192 .f32) : FVec F S8192x8192 .f32 :=
  select
    (cmpi .eq (addi (iotaInDim S8192x8192 32 0) (broadcastInDim S8192x8192 ![] bcast_S_S8192x8192 (constantI S_ 32 0#32)))
      (iotaInDim S8192x8192 32 1))
    (broadcastInDim S8192x8192 ![0, 1] bcast_S8192x1_S8192x8192_0_1
      (broadcastInDim S8192x1 ![0] bcast_S8192_S8192x1_0
        (pad S8192 ![0] ![0] ![0] d (constant S_ .f32 0x00000000#32) pads_S8192_S8192_000 h_S_)))
    (broadcastInDim S8192x8192 ![] bcast_S_S8192x8192 (constant S_ .f32 0x00000000#32))

def lapM (a : FVec F S8192x8192 .f32) : FVec F S8192x8192 .f32 :=
  subf (diagM (deg a)) (symA a)

def powV (d : FVec F S8192 .f32) : FVec F S8192 .f32 :=
  Host.powf (addf d (broadcastInDim S8192 ![] bcast_S_S8192 (constant S_ .f32 0x3727C5AC#32)))
    (broadcastInDim S8192 ![] bcast_S_S8192 (constant S_ .f32 0xBF000000#32))

/-- (d + ε)^(-½), an infinite value replaced by zero. -/
def normV (d : FVec F S8192 .f32) : FVec F S8192 .f32 :=
  select (cmpf .oeq (Host.absf (powV d)) (broadcastInDim S8192 ![] bcast_S_S8192 (constant S_ .f32 0x7F800000#32)))
    (broadcastInDim S8192 ![] bcast_S_S8192 (id (constant S_ .f32 0x00000000#32))) (powV d)

def scaled (a : FVec F S8192x8192 .f32) : FVec F S8192x8192 .f32 :=
  mulf
    (mulf
      (broadcastInDim S8192x8192 ![0, 1] bcast_S8192x1_S8192x8192_0_1
        (broadcastInDim S8192x1 ![0] bcast_S8192_S8192x1_0 (normV (deg a))))
      (lapM a))
    (broadcastInDim S8192x8192 ![0, 1] bcast_S1x8192_S8192x8192_0_1
      (broadcastInDim S1x8192 ![1] bcast_S8192_S1x8192_1 (normV (deg a))))

def refTerm (a : FVec F S8192x8192 .f32) (x : FVec F S8192x512 .f32) : FVec F S_ .f32 :=
  Host.reduceAdd
    (mulf x (Host.dotGeneral dot_S8192x8192_S8192x512_S8192x512_1_0_0_1_n_n none (scaled a) x))
    (constant S_ .f32 0x00000000#32) reducesTo_S8192x512_S_d0_1 h_S_

end Cert.ReferenceIdeal.RefTerm

end
-- ==== Proof.RefRun.lean ====
import proofs.«146407_j60627758350707_1_alg».proof.Proof.Gen.ReferenceIdeal
import proofs.«146407_j60627758350707_1_alg».proof.Proof.RefTerm
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo
open Facts₀ Facts

/-- The contents of an f32 buffer of shape `s`. -/
abbrev C (F : FTy → Type) (s : Shape) : Type := (⟨s, .f32⟩ : BufTy).Contents (Elt F)

variable {F : FTy → Type} [FloatOps F] [Facts]

abbrev ops : List (HloOp τ sig (Elt F)) :=
  [ unary main_arg0 main_v0 ((transpose S8192x8192 [1, 0] · transposes_S8192x8192_S8192x8192_1_0) : C F S8192x8192 → C F S8192x8192),
    binary main_v0 main_arg0 main_v1 (addf : C F S8192x8192 → C F S8192x8192 → C F S8192x8192),
    nullary main_cst (constant S_ .f32 0x3F000000#32),
    unary main_cst main_v2 (broadcastInDim S8192x8192 ![] bcast_S_S8192x8192 : C F S_ → C F S8192x8192),
    binary main_v1 main_v2 main_v3 (mulf : C F S8192x8192 → C F S8192x8192 → C F S8192x8192),
    nullary main_cst_0 (constant S_ .f32 0x00000000#32),
    binary main_v3 main_cst_0 main_v4 ((fun x v => Host.reduceAdd x v reducesTo_S8192x8192_S8192_d1 h_S_) : C F S8192x8192 → C F S_ → C F S8192),
    TRef.nullary main_call0.cst (constant S_ .f32 0x00000000#32),
    TRef.binary (.of main_v4 : TRef sig ⟨S8192, .f32⟩) main_call0.cst main_call0.v0 (fun x v => pad S8192 ![0] ![0] ![0] x v pads_S8192_S8192_000 h_S_),
    TRef.nullary main_call0.v1 (iotaInDim S8192x8192 32 0),
    TRef.nullary main_call0.v2 (iotaInDim S8192x8192 32 1),
    TRef.nullary main_call0.c (constantI S_ 32 0#32),
    TRef.unary main_call0.c main_call0.v3 (broadcastInDim S8192x8192 ![] bcast_S_S8192x8192),
    TRef.binary main_call0.v1 main_call0.v3 main_call0.v4 addi,
    TRef.binary main_call0.v4 main_call0.v2 main_call0.v5 (cmpi .eq),
    TRef.unary main_call0.v0 main_call0.v6 (broadcastInDim S8192x1 ![0] bcast_S8192_S8192x1_0),
    TRef.nullary main_call0.cst_0 (constant S_ .f32 0x00000000#32),
    TRef.unary main_call0.v6 main_call0.call0.v0 (broadcastInDim S8192x8192 ![0, 1] bcast_S8192x1_S8192x8192_0_1),
    TRef.unary main_call0.cst_0 main_call0.call0.v1 (broadcastInDim S8192x8192 ![] bcast_S_S8192x8192),
    TRef.ternary main_call0.v5 main_call0.call0.v0 main_call0.call0.v1 main_call0.call0.v2 select,
    binary main_v5 main_v3 main_v6 (subf : C F S8192x8192 → C F S8192x8192 → C F S8192x8192),
    nullary main_cst_1 (constant S_ .f32 0x3727C5AC#32),
    unary main_cst_1 main_v7 (broadcastInDim S8192 ![] bcast_S_S8192 : C F S_ → C F S8192),
    binary main_v4 main_v7 main_v8 (addf : C F S8192 → C F S8192 → C F S8192),
    nullary main_cst_2 (constant S_ .f32 0xBF000000#32),
    unary main_cst_2 main_v9 (broadcastInDim S8192 ![] bcast_S_S8192 : C F S_ → C F S8192),
    binary main_v8 main_v9 main_v10 (Host.powf : C F S8192 → C F S8192 → C F S8192),
    TRef.unary (.of main_v10 : TRef sig ⟨S8192, .f32⟩) main_call1.v0 Host.absf,
    TRef.nullary main_call1.cst (constant S_ .f32 0x7F800000#32),
    TRef.unary main_call1.cst main_call1.v1 (broadcastInDim S8192 ![] bcast_S_S8192),
    TRef.binary main_call1.v0 main_call1.v1 main_call1.v2 (cmpf .oeq),
    nullary main_cst_3 (constant S_ .f32 0x00000000#32),
    TRef.unary (.of main_cst_3 : TRef sig ⟨S_, .f32⟩) main_call2.v0 id,
    TRef.unary main_call2.v0 main_call2.v1 (broadcastInDim S8192 ![] bcast_S_S8192),
    TRef.ternary (.of main_v11 : TRef sig ⟨S8192, .i1⟩) main_call2.v1 (.of main_v10 : TRef sig ⟨S8192, .f32⟩) main_call2.v2 select,
    unary main_v12 main_v13 (broadcastInDim S8192x1 ![0] bcast_S8192_S8192x1_0 : C F S8192 → C F S8192x1),
    unary main_v13 main_v14 (broadcastInDim S8192x8192 ![0, 1] bcast_S8192x1_S8192x8192_0_1 : C F S8192x1 → C F S8192x8192),
    binary main_v14 main_v6 main_v15 (mulf : C F S8192x8192 → C F S8192x8192 → C F S8192x8192),
    unary main_v12 main_v16 (broadcastInDim S1x8192 ![1] bcast_S8192_S1x8192_1 : C F S8192 → C F S1x8192),
    unary main_v16 main_v17 (broadcastInDim S8192x8192 ![0, 1] bcast_S1x8192_S8192x8192_0_1 : C F S1x8192 → C F S8192x8192),
    binary main_v15 main_v17 main_v18 (mulf : C F S8192x8192 → C F S8192x8192 → C F S8192x8192),
    binary main_v18 main_arg1 main_v19 ((fun l r => Host.dotGeneral dot_S8192x8192_S8192x512_S8192x512_1_0_0_1_n_n none l r) : C F S8192x8192 → C F S8192x512 → C F S8192x512),
    binary main_arg1 main_v19 main_v20 (mulf : C F S8192x512 → C F S8192x512 → C F S8192x512),
    nullary main_cst_4 (constant S_ .f32 0x00000000#32),
    binary main_v20 main_cst_4 main_v21 ((fun x v => Host.reduceAdd x v reducesTo_S8192x512_S_d0_1 h_S_) : C F S8192x512 → C F S_ → C F S_) ]

theorem main_eq (c : Dev nD) : main (F := F) c = seq ops := by
  simp only [main, fn_diag.body, fn_where.body, fn_isinf.body, fn_where_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., binary_bufs_sub .., nullary_bufs_sub .., unary_bufs_sub .., binary_bufs_sub .., nullary_bufs_sub ..,
    binary_bufs_sub ..,
    nullary_bufs_sub .., binary_bufs_sub .., nullary_bufs_sub .., nullary_bufs_sub .., nullary_bufs_sub .., unary_bufs_sub ..,
    binary_bufs_sub .., binary_bufs_sub .., unary_bufs_sub .., nullary_bufs_sub ..,
    unary_bufs_sub .., unary_bufs_sub .., ternary_bufs_sub ..,
    binary_bufs_sub .., nullary_bufs_sub .., unary_bufs_sub .., binary_bufs_sub .., nullary_bufs_sub .., unary_bufs_sub ..,
    binary_bufs_sub ..,
    unary_bufs_sub .., nullary_bufs_sub .., unary_bufs_sub .., binary_bufs_sub ..,
    nullary_bufs_sub ..,
    unary_bufs_sub .., unary_bufs_sub .., ternary_bufs_sub ..,
    unary_bufs_sub .., unary_bufs_sub .., binary_bufs_sub .., unary_bufs_sub .., unary_bufs_sub .., binary_bufs_sub ..,
    binary_bufs_sub .., binary_bufs_sub .., nullary_bufs_sub .., binary_bufs_sub ..⟩

theorem out_eq (V : Valuation τ sig (Elt F)) :
    after ops V (main_v21 : DevRef τ sig)
      = RefTerm.refTerm (V (main_arg0 : DevRef τ sig)) (V (main_arg1 : DevRef τ sig)) := by
  after_results_simp
  rfl

theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v21) = RefTerm.refTerm (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v21).trans (out_eq _),
      (h c main_arg0).trans (arg0_eq _),
      (h c main_arg1).trans (arg1_eq _)⟩)
    (run_seq scopedRefs_eq scopedSems_eq defs main (fun _ => ops) main_eq (fun _ => ops_sub) m ρ)

end Cert.ReferenceIdeal.RefRun

end
-- ==== Proof.RefRead.lean ====
import proofs.«146407_j60627758350707_1_alg».proof.Proof.RefTerm
import proofs.«146407_j60627758350707_1_alg».proof.Proof.Spec
import proofs.«146407_j60627758350707_1_alg».proof.Proof.Norm
import proofs.«146407_j60627758350707_1_alg».proof.Proof.LibIdealReal
import proofs.«146407_j60627758350707_1_alg».proof.Proof.LibColumn
import Idealize.ShloMosaic.Lib.StableHlo.Predicate
import Idealize.ShloMosaic.Lib.ValueLayout
import Idealize.ShloMosaic.Lib.IdealHost
import Idealize.ShloMosaic.Lib.StackMember

noncomputable section

namespace Cert.ReferenceIdeal.RefRead

open Cert.ReferenceIdeal Idealize.ShloMosaic Idealize.ShloMosaic.ValueIdx
open Facts₀ Facts
open Cert.LibIdealReal Cert.LibColumn Cert.Spec Cert.Norm
open scoped BigOperators

variable [Facts]

theorem reduces_d1 : S8192x8192.Reduces [1] S8192 := by decide

theorem lift_d1 (i k : Fin 8192) : reduces_d1.lift (ix1 i) k = ix2 i k :=
  funext (Fin.forall_fin_two.2 ⟨Fin.ext rfl, Fin.ext rfl⟩)

/-- Numbers below 8192 are equal as 32-bit words exactly when they are equal. -/
theorem ofNat32_inj (i j : Fin 8192) : BitVec.ofNat 32 i.val = BitVec.ofNat 32 j.val ↔ i = j :=
  ⟨fun h => Fin.ext (by have := congrArg BitVec.toNat h; simp only [BitVec.toNat_ofNat] at this; omega), fun h => h ▸ rfl⟩

theorem diag_cond (i j : Fin 8192) :
    cmpi .eq (addi (iotaInDim S8192x8192 32 0) (broadcastInDim S8192x8192 ![] bcast_S_S8192x8192 (constantI S_ 32 0#32)))
      (iotaInDim S8192x8192 32 1) (ix2 i j) = 1 ↔ i = j := by
  show IntOp.cmpi .eq (IntOp.addi (BitVec.ofNat 32 i.val) (0#32)) (BitVec.ofNat 32 j.val) = 1#1 ↔ i = j
  rw [StableHlo.Predicate.cmpi_eq_iff]
  unfold IntOp.addi
  rw [BitVec.add_zero]
  exact ofNat32_inj i j

/-- The diagonal array of a vector: its entry `i` on the diagonal, zero elsewhere; the padding by nothing is the identity. -/
theorem diagM_read (d : FVec Ideal S8192 .f32) (i j : Fin 8192) :
    RefTerm.diagM (F := Ideal) d (ix2 i j) = if i = j then d (ix1 i) else 0 := by
  unfold RefTerm.diagM
  rw [select_apply]
  unfold Scalar.select
  by_cases h : i = j
  · rw [if_pos h, if_pos ((diag_cond i j).2 h), col_spread_apply]
    exact pad_apply_of_inside _ _ _ d _ pads_S8192_S8192_000 h_S_ (ix1 i) (ix1 i)
      (Fin.forall_fin_one.2 (by show i.val = 0 + i.val * (0 + 1); omega))
  · rw [if_neg h, if_neg fun hc => h ((diag_cond i j).1 hc), broadcastInDim_scalar_apply, constant_apply,
      Ideal.ofBits_zero_f32]

variable (a : FVec Ideal S8192x8192 .f32) (x : FVec Ideal S8192x512 .f32) (A : Fin 8192 → Fin 8192 → ℝ)
  (X : Fin 8192 → Fin 512 → ℝ) (ha : ∀ i j, a (ix2 i j) = ((A i j : ℝ) : EReal))
  (hx : ∀ i f, x (ix2 i f) = ((X i f : ℝ) : EReal))

include ha

theorem symA_read (i j : Fin 8192) : RefTerm.symA (F := Ideal) a (ix2 i j) = ((sym A i j : ℝ) : EReal) := by
  unfold RefTerm.symA
  rw [mulf_apply, addf_apply, transpose_ix2_apply, broadcastInDim_scalar_apply, constant_apply, ofBits_half, ha, ha,
    ← EReal.coe_add, ← EReal.coe_mul]
  rfl

/-- The reduction over the columns from the zero word is the plain row sum. -/
theorem deg_read (i : Fin 8192) : RefTerm.deg (F := Ideal) a (ix1 i) = ((degR A i : ℝ) : EReal) := by
  unfold RefTerm.deg
  rw [hostReduceAdd_apply, Ideal.hostReduceAdd_single reducesTo_S8192x8192_S8192_d1 reduces_d1, constant_apply,
    Ideal.ofBits_zero_f32, zero_add]
  exact sum_of_eq _ _ _ fun k _ => (congrArg (RefTerm.symA (F := Ideal) a) (lift_d1 i k)).trans (symA_read a A ha i k)

theorem lapM_read (i j : Fin 8192) : RefTerm.lapM (F := Ideal) a (ix2 i j) = ((lap A i j : ℝ) : EReal) := by
  unfold RefTerm.lapM lap
  rw [subf_apply, diagM_read, symA_read a A ha, deg_read a A ha, EReal.coe_sub, apply_ite (fun r : ℝ => (r : EReal)),
    EReal.coe_zero]

/-- On a real degree the normalisation is a real number. -/
theorem normDeg_read (i : Fin 8192) :
    RefTerm.normV (F := Ideal) (RefTerm.deg (F := Ideal) a) (ix1 i) = ((rho (degR A i) : ℝ) : EReal) :=
  (congrArg normE (deg_read a A ha i)).trans (normE_coe _)

theorem scaled_read (i j : Fin 8192) :
    RefTerm.scaled (F := Ideal) a (ix2 i j) = (((rho (degR A i) * lap A i j) * rho (degR A j) : ℝ) : EReal) := by
  unfold RefTerm.scaled
  rw [mulf_apply, mulf_apply, col_spread_apply, row_spread_apply, normDeg_read a A ha, normDeg_read a A ha,
    lapM_read a A ha, ← EReal.coe_mul, ← EReal.coe_mul]

include hx

theorem refTerm_real : RefTerm.refTerm (F := Ideal) a x = fun _ => ((refR rho A X : ℝ) : EReal) := by
  funext k
  unfold RefTerm.refTerm
  rw [hostReduceAdd_apply, Ideal.hostReduceAdd_total reducesTo_S8192x512_S_d0_1 (fun b => b.elim0), constant_apply,
    Ideal.ofBits_zero_f32, zero_add, sum_idx2]
  unfold refR
  refine sum_of_eq _ _ _ fun p _ => sum_of_eq _ _ _ fun q _ => ?_
  rw [mulf_apply, hx]
  exact (congrArg (((X p q : ℝ) : EReal) * ·) ((StackMember.dotGeneral_plain_apply none (RefTerm.scaled (F := Ideal) a) x p q).trans
    (sum_of_eq _ _ _ fun j _ => by rw [scaled_read a A ha, hx, ← EReal.coe_mul]))).trans (EReal.coe_mul _ _).symm

end Cert.ReferenceIdeal.RefRead

end
-- ==== Proof.Finite.lean ====
import proofs.«146407_j60627758350707_1_alg».proof.Pre_finite_inputs
import proofs.«146407_j60627758350707_1_alg».proof.Proof.Gen.Pre_finite_inputs
import proofs.«146407_j60627758350707_1_alg».proof.Proof.Norm
import Idealize.ShloMosaic.Lib.ReduceAll
import Idealize.ShloMosaic.Lib.ValueIdx
import Idealize.ShloMosaic.Lib.Affine

noncomputable section

namespace Cert.Finite

open Idealize.ShloMosaic Idealize.ShloMosaic.ValueIdx

/-- An extended real whose absolute value is below the top element is neither infinity. -/
theorem real_of_abs_lt_inf (x : EReal) (h : Ideal.cmp .olt (max x (-x)) (Ideal.ofBits .f32 0x7F800000#32) = 1#1) :
    ∃ r : ℝ, x = (r : EReal) := by
  rw [Cert.Norm.ofBits_inf] at h
  induction x using EReal.rec with
  | bot => simp [Ideal.cmp] at h
  | coe r => exact ⟨r, rfl⟩
  | top => simp [Ideal.cmp] at h

instance : Subsingleton (⟨0, ![]⟩ : Shape).Idx := ⟨fun _ _ => funext fun d => d.elim0⟩

/-- If the test `all (|x| < +inf)` of an array answers one, every entry is a coerced real. -/
theorem real_of_all {s : Shape} {axes : List (Fin s.rank)} (x : FVec Ideal s .f32)
    (bc : (⟨0, ![]⟩ : Shape).BroadcastsInDim s (![] : Fin 0 → Fin s.rank)) (h : s.ReducesTo axes ⟨0, ![]⟩)
    (hu : 0 < (⟨0, ![]⟩ : Shape).numel)
    (e : Host.reduce IntOp.andi (cmpf .olt (Host.absf x) (broadcastInDim s ![] bc (constant ⟨0, ![]⟩ .f32 0x7F800000#32)))
      (constantI ⟨0, ![]⟩ 1 1#1) h hu ix0 = 1#1) (i : s.Idx) : ∃ r : ℝ, x i = (r : EReal) :=
  real_of_abs_lt_inf (x i) (Host.reduce_andi_all _ _ h hu ix0 e i)

theorem real_witnesses [Cert.Pre_finite_inputs.Facts]
    (a : FVec Ideal ⟨2, ![8192, 8192]⟩ .f32) (x : FVec Ideal ⟨2, ![8192, 512]⟩ .f32)
    (h : Cert.Pre_finite_inputs.fn (F := Ideal) a x = fun _ => 1#1) :
    ∃ (A : Fin 8192 → Fin 8192 → ℝ) (X : Fin 8192 → Fin 512 → ℝ),
      (∀ i j, a (ix2 i j) = ((A i j : ℝ) : EReal)) ∧ (∀ i f, x (ix2 i f) = ((X i f : ℝ) : EReal)) := by
  have h0 := congrFun h ix0
  dsimp only [Cert.Pre_finite_inputs.fn] at h0
  obtain ⟨ha, hx⟩ := IntOp.andi_eq_one.1 h0
  choose A hA using fun (i : Fin 8192) (j : Fin 8192) => real_of_all a _ _ _ ha (ix2 i j)
  choose X hX using fun (i : Fin 8192) (f : Fin 512) => real_of_all x _ _ _ hx (ix2 i f)
  exact ⟨A, X, hA, hX⟩

end Cert.Finite

end
-- ==== Proof.Algebra.lean ====
import Mathlib.Algebra.BigOperators.Ring.Finset
import Mathlib.Algebra.BigOperators.Group.Finset.Piecewise
import Mathlib.Tactic.Ring
import proofs.«146407_j60627758350707_1_alg».proof.Proof.Spec
import proofs.«146407_j60627758350707_1_alg».proof.Proof.LibBlockSum

namespace Cert.Spec

open scoped BigOperators

variable (ρ : ℝ → ℝ) (A : Fin 8192 → Fin 8192 → ℝ) (X : Fin 8192 → Fin 512 → ℝ)

/-- Half the sum of row `i` and column `i` is the sum of the symmetrised row `i`. -/
theorem degK_eq_degR : degK A = degR A := funext fun i => by
  unfold degK degR rowSum colSum sym
  rw [← Finset.sum_add_distrib, Finset.mul_sum]
  exact Finset.sum_congr rfl fun j _ => by ring

theorem sum_blk16 (g : Fin 8192 → ℝ) : ∑ k : Fin 16, ∑ j : Fin 512, g (blk16 k j) = ∑ n : Fin 8192, g n :=
  Cert.BlockSum.sum_blocks 16 512 g

/-- The half distributes over the two block products, and the 16 blocks run through every column once. -/
theorem accK_eq (i : Fin 8192) (f : Fin 512) :
    accK ρ A X i f = ∑ j : Fin 8192, sym A i j * (ρ (degR A j) * X j f) := by
  unfold accK
  rw [← degK_eq_degR]
  refine (Finset.sum_congr rfl fun k _ => ?_).trans (sum_blk16 fun n => sym A i n * (ρ (degK A n) * X n f))
  rw [← Finset.sum_add_distrib, Finset.mul_sum]
  exact Finset.sum_congr rfl fun j _ => by simp only [sym]; ring

/-- The Laplacian's diagonal part keeps the single term `j = i`, and ρ (d i) factors out. -/
theorem inner_eq (i : Fin 8192) (f : Fin 512) :
    ∑ j : Fin 8192, ((ρ (degR A i) * lap A i j) * ρ (degR A j)) * X j f
      = ρ (degR A i) * (degR A i * (ρ (degR A i) * X i f)
          - ∑ j : Fin 8192, sym A i j * (ρ (degR A j) * X j f)) := by
  have ht : ∀ j, ((ρ (degR A i) * lap A i j) * ρ (degR A j)) * X j f
      = (if i = j then ρ (degR A i) * (degR A i * (ρ (degR A j) * X j f)) else 0)
        - ρ (degR A i) * (sym A i j * (ρ (degR A j) * X j f)) := fun j => by
    unfold lap
    by_cases h : i = j
    · rw [if_pos h, if_pos h]; ring
    · rw [if_neg h, if_neg h]; ring
  rw [Finset.sum_congr rfl fun j _ => ht j, Finset.sum_sub_distrib, Finset.sum_ite_eq, if_pos (Finset.mem_univ i),
    ← Finset.mul_sum]
  ring

theorem kerR_eq_refR : kerR ρ A X = refR ρ A X := by
  unfold kerR refR rowLoss
  refine Finset.sum_congr rfl fun i _ => Finset.sum_congr rfl fun f _ => ?_
  rw [inner_eq, accK_eq, degK_eq_degR]

end Cert.Spec
-- ==== Proof.lean ====
import proofs.«146407_j60627758350707_1_alg».proof.Defs
import proofs.«146407_j60627758350707_1_alg».proof.Proof.KAll
import proofs.«146407_j60627758350707_1_alg».proof.Proof.BitsKAll
import proofs.«146407_j60627758350707_1_alg».proof.Proof.K0Value
import proofs.«146407_j60627758350707_1_alg».proof.Proof.K1Value
import proofs.«146407_j60627758350707_1_alg».proof.Proof.KHost
import proofs.«146407_j60627758350707_1_alg».proof.Proof.RefRun
import proofs.«146407_j60627758350707_1_alg».proof.Proof.RefRead
import proofs.«146407_j60627758350707_1_alg».proof.Proof.Finite
import proofs.«146407_j60627758350707_1_alg».proof.Proof.Algebra
import Idealize.ShloMosaic.Adequacy
import Idealize.ShloMosaic.Init

noncomputable section

namespace Cert.Proof

open Idealize.ShloMosaic Idealize.ShloMosaic.TcCoe Idealize.SL.Sem Idealize.ShloMosaic.ValueIdx

theorem frame_p : Cert.frame_Kernel := fun m ρ _ => Cert.Kernel.All.frame m ρ

theorem frame_pi : Cert.frame_KernelIdeal := fun m ρ _ => Cert.KernelIdeal.All.frame m ρ

theorem frame_ri : Cert.frame_ReferenceIdeal := fun m ρ _ =>
  (θ_run Cert.ReferenceIdeal.defs _ _).mono (fun _ h c => (h c).2) (Cert.ReferenceIdeal.RefRun.run (F := Ideal) m ρ)

/-- Both results are the coerced real `kerR` of the inputs' real entries; the two real sums agree by regrouping. -/
theorem algebraic : Cert.algebraic_KernelIdeal_ReferenceIdeal := by
  intro m ρ m' ρ' hpre hagree
  have hw := fun c : Dev Cert.KernelIdeal.nD => Cert.Finite.real_witnesses _ _ (hpre c)
  choose A X ha hx using hw
  refine ⟨fun c _ => ((Cert.Spec.kerR Cert.Norm.rho (A c) (X c) : ℝ) : EReal), ?_, ?_⟩
  · refine (θ_run Cert.KernelIdeal.defs _ _).mono (fun _ h c => ⟨(h c).1.trans ?_, (h c).2⟩) (Cert.KernelIdeal.All.value (F := Ideal) m ρ)
    exact Cert.KernelIdeal.HostV.kernel_value m (Cert.KernelIdeal.All.outs m) c (A c) (X c) (ha c) (hx c)
      (fun p => (congrFun (Cert.KernelIdeal.All.outs_v0_0 m c) (ix1 p)).trans (Cert.KernelIdeal.R0V.rowsum_arr _ c p))
      (fun q => (congrFun (Cert.KernelIdeal.All.outs_v0_1 m c) (ix1 q)).trans (Cert.KernelIdeal.R0V.colsum_arr _ c q))
      (fun p => (congrFun (Cert.KernelIdeal.All.outs_v10 m c) (ix1 p)).trans (Cert.KernelIdeal.R1V.loss_arr _ c p))
  · refine (θ_run Cert.ReferenceIdeal.defs _ _).mono (fun _ h c => ⟨(h c).1.trans ?_, (h c).2⟩) (Cert.ReferenceIdeal.RefRun.run (F := Ideal) m' ρ')
    rw [(hagree c).1, (hagree c).2, Cert.ReferenceIdeal.RefRead.refTerm_real _ _ (A c) (X c) (ha c) (hx c)]
    funext _
    exact congrArg (fun r : ℝ => (r : EReal)) (Cert.Spec.kerR_eq_refR Cert.Norm.rho (A c) (X c)).symm

theorem claim : Cert.Claim := ⟨Cert.Kernel.Gen.facts, Cert.KernelIdeal.Gen.facts, Cert.ReferenceIdeal.Gen.facts, Cert.Pre_finite_inputs.Gen.facts,
  frame_p, frame_pi, frame_ri, trivial, algebraic⟩

end Cert.Proof

end
